-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x2 : Shape := ⟨2, ![524288, 2]⟩
abbrev S1024x16 : Shape := ⟨2, ![1024, 16]⟩
abbrev S64x2 : Shape := ⟨2, ![64, 2]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S144x128 : Shape := ⟨2, ![144, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S524288 : Shape := ⟨1, ![524288]⟩
abbrev S_ : Shape := ⟨0, ![]⟩

class Facts : Prop where
  bcast_S_S524288x2 : S_.BroadcastsInDim S524288x2 (![] : Fin 0 → Fin S524288x2.rank)
  reducesTo_S524288x2_S_d0_1 : S524288x2.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S64x2 : S_.BroadcastsInDim S64x2 (![] : Fin 0 → Fin S64x2.rank)
  reducesTo_S64x2_S_d0_1 : S64x2.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S128x10 .f32) (main_arg15 : FVec F S10 .f32) (main_v63 : IVec S_ 1) (main_v67 : IVec S_ 1) : IVec S_ 1 :=
  let main_v68 : IVec S_ 1 := andi main_v63 main_v67
  let main_v69 : FVec F S128x10 .f32 := Host.absf main_arg14
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg11 : FVec F S128 .f32) (main_arg12 : FVec F S128x128 .f32) (main_arg13 : FVec F S128 .f32) (main_arg14 : FVec F S128x10 .f32) (main_arg15 : FVec F S10 .f32) (main_v48 : IVec S_ 1) (main_v49 : FVec F S144x128 .f32) (main_v50 : FVec F S144x128 .f32) : IVec S_ 1 :=
  let main_v51 : IVec S144x128 1 := cmpf .olt main_v49 main_v50
  let main_c_19 : IVec S_ 1 := constantI S_ 1 1#1
  let main_v52 : IVec S_ 1 := (fun x v => Host.reduce IntOp.andi x v reducesTo_S144x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S64 .f32) (main_arg8 : FVec F S64x1 .f32) (main_arg9 : FVec F S1 .f32) (main_arg10 : FVec F S144x128 .f32) (main_arg11 : FVec F S128 .f32) (main_arg12 : FVec F S128x128 .f32) (main_arg13 : FVec F S128 .f32) (main_arg14 : FVec F S128x10 .f32) (main_arg15 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S144x128 .f32 := Host.absf main_arg10
  let main_cst_18 : FVec F S_ .f32 := constant S_ .f32 0x7F800000#32
  let main_v50 : FVec F S144x128 .f32 := broadcastInDim S144x128 ![] bcast_S_S144x128 main_cst_18
  fn_part3 (F := F) main_arg11 main_arg12 main_arg13 main_arg14 main_arg15 main_v48 main_v49 main_v50

def fn_part1 {F : FTy → Type} [FloatOps F] (main_arg4 : FVec F S2x64 .f32) (main_arg5 : FVec F S64 .f32) (main_arg6 : FVec F S64x64 .f32) (main_arg7 : FVec F S64 .f32) (main_arg8 : FVec F S64x1 .f32) (main_arg9 : FVec F S1 .f32) (main_arg10 : FVec F S144x128 .f32) (main_arg11 : FVec F S128 .f32) (main_arg12 : FVec F S128x128 .f32) (main_arg13 : FVec F S128 .f32) (main_arg14 : FVec F S128x10 .f32) (main_arg15 : FVec F S10 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S524288x2 .f32) (main_arg1 : FVec F S524288x2 .f32) (main_arg2 : FVec F S1024x16 .f32) (main_arg3 : FVec F S64x2 .f32) (main_arg4 : FVec F S2x64 .f32) (main_arg5 : FVec F S64 .f32) (main_arg6 : FVec F S64x64 .f32) (main_arg7 : FVec F S64 .f32) (main_arg8 : FVec F S64x1 .f32) (main_arg9 : FVec F S1 .f32) (main_arg10 : FVec F S144x128 .f32) (main_arg11 : FVec F S128 .f32) (main_arg12 : FVec F S128x128 .f32) (main_arg13 : FVec F S128 .f32) (main_arg14 : FVec F S128x10 .f32) (main_arg15 : FVec F S10 .f32) (main_arg16 : IVec S524288 32) (main_arg17 : IVec S524288 32) : IVec S_ 1 :=
  let main_v0 : FVec F S524288x2 .f32 := Host.absf main_arg0
  let main_cst : FVec F S_ .f32 := constant S_ .f32 0x7F800000#32
  let main_v1 : FVec F S524288x2 .f32 := broadcastInDim S524288x2 ![] bcast_S_S524288x2 main_cst
  let main_v2 : IVec S524288x2 1 := cmpf .olt main_v0 main_v1
  let main_c : IVec S_ 1 := constantI S_ 1 1#1
  let main_v3 : IVec S_ 1 := (fun x v => Host.reduce IntOp.andi x v reducesTo_S524288x2_S_d0_1 h_S_) main_v2 main_c
  let main_v4 : FVec F S524288x2 .f32 := Host.absf main_arg1
  let main_cst_0 : FVec F S_ .f32 := constant S_ .f32 0x7F800000#32
  let main_v5 : FVec F S524288x2 .f32 := broadcastInDim S524288x2 ![] bcast_S_S524288x2 main_cst_0
  let main_v6 : IVec S524288x2 1 := cmpf .olt main_v4 main_v5
  let main_c_1 : IVec S_ 1 := constantI S_ 1 1#1
  let main_v7 : IVec S_ 1 := (fun x v => Host.reduce IntOp.andi x v reducesTo_S524288x2_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S524288x2 : Shape := ⟨2, ![524288, 2]⟩
abbrev S1024x16 : Shape := ⟨2, ![1024, 16]⟩
abbrev S64x2 : Shape := ⟨2, ![64, 2]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S144x128 : Shape := ⟨2, ![144, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S524288 : Shape := ⟨1, ![524288]⟩
abbrev S524288x1 : Shape := ⟨2, ![524288, 1]⟩
abbrev S1x64 : Shape := ⟨2, ![1, 64]⟩
abbrev S1x1 : Shape := ⟨2, ![1, 1]⟩
abbrev S1024x64 : Shape := ⟨2, ![1024, 64]⟩
abbrev S2048x2 : Shape := ⟨2, ![2048, 2]⟩
abbrev S2048x1 : Shape := ⟨2, ![2048, 1]⟩
abbrev S2048 : Shape := ⟨1, ![2048]⟩
abbrev S2048x64 : Shape := ⟨2, ![2048, 64]⟩
abbrev S2048x1024 : Shape := ⟨2, ![2048, 1024]⟩
abbrev S64x128 : Shape := ⟨2, ![64, 128]⟩
abbrev S16x128 : Shape := ⟨2, ![16, 128]⟩
abbrev S1x128 : Shape := ⟨2, ![1, 128]⟩
abbrev S1x10 : Shape := ⟨2, ![1, 10]⟩
abbrev S1024x10 : Shape := ⟨2, ![1024, 10]⟩
abbrev S1024x128 : Shape := ⟨2, ![1024, 128]⟩

abbrev nBuf : Space → Nat
  | .hbm => 35
  | .vmem => 38
  | .smem => 0
  | _ => 0

abbrev bufTy : (tb : Table) → Fin (tcTables nBuf tb) → BufTy
  | .hbm, ⟨0, _⟩ => ⟨S524288x2, .f32⟩
  | .hbm, ⟨1, _⟩ => ⟨S524288x2, .f32⟩
  | .hbm, ⟨2, _⟩ => ⟨S1024x16, .f32⟩
  | .hbm, ⟨3, _⟩ => ⟨S64x2, .f32⟩
  | .hbm, ⟨4, _⟩ => ⟨S2x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S144x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S1x64, .f32⟩
  | .hbm, ⟨20, _⟩ => ⟨S1x64, .f32⟩
  | .hbm, ⟨21, _⟩ => ⟨S1x1, .f32⟩
  | .hbm, ⟨22, _⟩ => ⟨S1024x64, .f32⟩
  | .hbm, ⟨23, _⟩ => ⟨S524288x1, .i32⟩
  | .hbm, ⟨24, _⟩ => ⟨S1x64, .f32⟩
  | .hbm, ⟨25, _⟩ => ⟨S1x64, .f32⟩
  | .hbm, ⟨26, _⟩ => ⟨S1x1, .f32⟩
  | .hbm, ⟨27, _⟩ => ⟨S1024x64, .f32⟩
  | .hbm, ⟨28, _⟩ => ⟨S64x128, .f32⟩
  | .hbm, ⟨29, _⟩ => ⟨S64x128, .f32⟩
  | .hbm, ⟨30, _⟩ => ⟨S16x128, .f32⟩
  | .hbm, ⟨31, _⟩ => ⟨S1x128, .f32⟩
  | .hbm, ⟨32, _⟩ => ⟨S1x128, .f32⟩
  | .hbm, ⟨33, _⟩ => ⟨S1x10, .f32⟩
  | .hbm, ⟨34, _⟩ => ⟨S1024x10, .f32⟩
  | .local _ .vmem, ⟨0, _⟩ => ⟨S2048x2, .f32⟩
  | .local _ .vmem, ⟨1, _⟩ => ⟨S2048x2, .f32⟩
  | .local _ .vmem, ⟨2, _⟩ => ⟨S2048x1, .i32⟩
  | .local _ .vmem, ⟨3, _⟩ => ⟨S2048x1, .i32⟩
  | .local _ .vmem, ⟨4, _⟩ => ⟨S64x2, .f32⟩
  | .local _ .vmem, ⟨5, _⟩ => ⟨S2x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S64x1, .f32⟩
  | .local _ .vmem, ⟨10, _⟩ => ⟨S1x1, .f32⟩
  | .local _ .vmem, ⟨11, _⟩ => ⟨S1024x64, .f32⟩
  | .local _ .vmem, ⟨12, _⟩ => ⟨S1024x64, .f32⟩
  | .local _ .vmem, ⟨13, _⟩ => ⟨S2048x2, .f32⟩
  | .local _ .vmem, ⟨14, _⟩ => ⟨S2048x2, .f32⟩
  | .local _ .vmem, ⟨15, _⟩ => ⟨S2048x1, .i32⟩
  | .local _ .vmem, ⟨16, _⟩ => ⟨S2048x1, .i32⟩
  | .local _ .vmem, ⟨17, _⟩ => ⟨S64x2, .f32⟩
  | .local _ .vmem, ⟨18, _⟩ => ⟨S2x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | .local _ .vmem, ⟨27, _⟩ => ⟨S1024x64, .f32⟩
  | .local _ .vmem, ⟨28, _⟩ => ⟨S1024x16, .f32⟩
  | .local _ .vmem, ⟨29, _⟩ => ⟨S64x128, .f32⟩
  | .local _ .vmem, ⟨30, _⟩ => ⟨S64x128, .f32⟩
  | .local _ .vmem, ⟨31, _⟩ => ⟨S16x128, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x10, .f32⟩
  | .local _ .vmem, ⟨36, _⟩ => ⟨S1x10, .f32⟩
  | .local _ .vmem, ⟨37, _⟩ => ⟨S1024x10, .f32⟩
  | _, _ => ⟨S524288x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v64 : BitVec 1 := Scalar.cmpi .eq arg0 c255_i32
  let v65 : BitVec 32 := Scalar.extui v64
  let c0_i32_33 : BitVec 32 := 0#32
  let v66 : BitVec 1 := Scalar.cmpi .ne v65 c0_i32_33
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![256], ![false]⟩

def k1_cond2 (i : grid1.Coords) : BitVec 1 :=
  let arg0 : BitVec 32 := BitVec.ofNat 32 (i 0).val
  let c255_i32 : BitVec 32 := 255#32
  let v64 : BitVec 1 := Scalar.cmpi .eq arg0 c255_i32
  let v65 : BitVec 32 := Scalar.extui v64
  let c0_i32_33 : BitVec 32 := 0#32
  let v66 : BitVec 1 := Scalar.cmpi .ne v65 c0_i32_33
  v66

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x10 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x10 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x10 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  shapeCasts_S524288_S524288x1 : S524288.ShapeCasts S524288x1
  shapeCasts_S64_S1x64 : S64.ShapeCasts S1x64
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x2_S2048x2_0_0 : ∀ a, (![0, 0] : Fin 2 → Nat) a + S2048x2.size a ≤ S2048x2.size a
  h_S2048x2 : 0 < S2048x2.numel
  inb_S64x2_S64x2_0_0 : ∀ a, (![0, 0] : Fin 2 → Nat) a + S64x2.size a ≤ S64x2.size a
  h_S64x2 : 0 < S64x2.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  reduces_S2048x2_S2048 : S2048x2.Reduces [1] S2048
  shapeCasts_S2048_S2048x1 : S2048.ShapeCasts S2048x1
  reduces_S64x2_S64 : S64x2.Reduces [1] S64
  broadcasts_S2048x1_S2048x64 : S2048x1.Broadcasts S2048x64
  broadcasts_S1x64_S2048x64 : S1x64.Broadcasts S2048x64
  transposes_S64x2_p1_0_S2x64 : S64x2.Transposes [1, 0] S2x64
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  bitsLt_bf16_f32 : FTy.bits .bf16 < FTy.bits .f32
  iota_S2048x1024_d1_w32 : S2048x1024.Iotas .tc 32 [1]
  broadcasts_S2048x1_S2048x1024 : S2048x1.Broadcasts S2048x1024
  natLt_1_32 : 1 < 32
  slices_S144x128_S64x128_0_0 : S144x128.Slices ![0, 0] S64x128
  slices_S144x128_S64x128_64_0 : S144x128.Slices ![64, 0] S64x128
  slices_S144x128_S16x128_128_0 : S144x128.Slices ![128, 0] S16x128
  shapeCasts_S128_S1x128 : S128.ShapeCasts S1x128
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1024x16_S1024x16_0_0 : ∀ a, (![0, 0] : Fin 2 → Nat) a + S1024x16.size a ≤ S1024x16.size a
  h_S1024x16 : 0 < S1024x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S2048x2_S2x64_S2048x64_1_0_0_1_n_n_wf : DotDims.WF S2048x2 S2x64 S2048x64 [1] [0] [0] [1] [] []
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  dot_S2048x1024_S2048x64_S1024x64_0_0_1_1_n_n_wf : DotDims.WF S2048x1024 S2048x64 S1024x64 [0] [0] [1] [1] [] []
  dot_S1024x64_S64x128_S1024x128_1_0_0_1_n_n_wf : DotDims.WF S1024x64 S64x128 S1024x128 [1] [0] [0] [1] [] []
  dot_S1024x16_S16x128_S1024x128_1_0_0_1_n_n_wf : DotDims.WF S1024x16 S16x128 S1024x128 [1] [0] [0] [1] [] []
  dot_S1024x128_S128x128_S1024x128_1_0_0_1_n_n_wf : DotDims.WF S1024x128 S128x128 S1024x128 [1] [0] [0] [1] [] []
  dot_S1024x128_S128x10_S1024x10_1_0_0_1_n_n_wf : DotDims.WF S1024x128 S128x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S524288x2.size a
  hwx0_0 : ∀ i : grid0.Coords, EltTy.bits .f32 = 32 ∨ (Rect.block (s := S524288x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S524288x1.size a
  hwx0_1 : ∀ i : grid0.Coords, EltTy.bits .i32 = 32 ∨ (Rect.block (s := S524288x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .f32 = 32 ∨ (Rect.block (s := S2x64) S2x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S1024x64.size a
  hwx0_9 : ∀ i : grid0.Coords, EltTy.bits .f32 = 32 ∨ (Rect.block (s := S1024x64) S1024x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2.size a ≤ S524288x2.size a
  hwx1_0 : ∀ i : grid1.Coords, EltTy.bits .f32 = 32 ∨ (Rect.block (s := S524288x2) S2048x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S524288x1.size a
  hwx1_1 : ∀ i : grid1.Coords, EltTy.bits .i32 = 32 ∨ (Rect.block (s := S524288x1) S2048x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x2.size a ≤ S64x2.size a
  hwx1_2 : ∀ i : grid1.Coords, EltTy.bits .f32 = 32 ∨ (Rect.block (s := S64x2) S64x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x64.size a ≤ S2x64.size a
  hwx1_3 : ∀ i : grid1.Coords, EltTy.bits .f32 = 32 ∨ (Rect.block (s := S2x64) S2x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1024x64.size a ≤ S1024x64.size a
  hwx1_9 : ∀ i : grid1.Coords, EltTy.bits .f32 = 32 ∨ (Rect.block (s := S1024x64) S1024x64.size (cc1_transform_9 i) (hinb1_9 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1024x64.size a
  hwx2_1 : ∀ i : grid2.Coords, EltTy.bits .f32 = 32 ∨ (Rect.block (s := S1024x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x16.size a ≤ S1024x16.size a
  hwx2_2 : ∀ i : grid2.Coords, EltTy.bits .f32 = 32 ∨ (Rect.block (s := S1024x16) S1024x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x10.size a ≤ S128x10.size a
  hwx2_9 : ∀ i : grid2.Coords, EltTy.bits .f32 = 32 ∨ (Rect.block (s := S128x10) S128x10.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x10.size a ≤ S1x10.size a
  hwx2_10 : ∀ i : grid2.Coords, EltTy.bits .f32 = 32 ∨ (Rect.block (s := S1x10) S1x10.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1024x10.size a ≤ S1024x10.size a
  hwx2_11 : ∀ i : grid2.Coords, EltTy.bits .f32 = 32 ∨ (Rect.block (s := S1024x10) S1024x10.size (cc2_transform_11 i) (hinb2_11 i)).WholeWords (EltTy.packing .f32)

variable [Facts₀]

def dot_S2048x2_S2x64_S2048x64_1_0_0_1_n_n : DotDims S2048x2 S2x64 S2048x64 where
  lhsContracting := [1]
  rhsContracting := [0]
  lhsNonContracting := [0]
  rhsNonContracting := [1]
  lhsBatch := []
  rhsBatch := []
  wf := dot_S2048x2_S2x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S2048x1024_S2048x64_S1024x64_0_0_1_1_n_n : DotDims S2048x1024 S2048x64 S1024x64 where
  lhsContracting := [0]
  rhsContracting := [0]
  lhsNonContracting := [1]
  rhsNonContracting := [1]
  lhsBatch := []
  rhsBatch := []
  wf := dot_S2048x1024_S2048x64_S1024x64_0_0_1_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x16_S16x128_S1024x128_1_0_0_1_n_n : DotDims S1024x16 S16x128 S1024x128 where
  lhsContracting := [1]
  rhsContracting := [0]
  lhsNonContracting := [0]
  rhsNonContracting := [1]
  lhsBatch := []
  rhsBatch := []
  wf := dot_S1024x16_S16x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1024x64.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_arg1) S2048x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v9) S1024x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v4) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v14) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg14) S128x10.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v15) S1x10.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v16) S1024x10.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S524288x2 : Shape := ⟨2, ![524288, 2]⟩
abbrev S1024x16 : Shape := ⟨2, ![1024, 16]⟩
abbrev S64x2 : Shape := ⟨2, ![64, 2]⟩
abbrev S2x64 : Shape := ⟨2, ![2, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S144x128 : Shape := ⟨2, ![144, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S524288 : Shape := ⟨1, ![524288]⟩
abbrev S_ : Shape := ⟨0, ![]⟩
abbrev S524288x1 : Shape := ⟨2, ![524288, 1]⟩
abbrev S1x64 : Shape := ⟨2, ![1, 64]⟩
abbrev S524288x64 : Shape := ⟨2, ![524288, 64]⟩
abbrev S1x1 : Shape := ⟨2, ![1, 1]⟩
abbrev S1024x64 : Shape := ⟨2, ![1024, 64]⟩
abbrev S1024x144 : Shape := ⟨2, ![1024, 144]⟩
abbrev S1024x128 : Shape := ⟨2, ![1024, 128]⟩
abbrev S1x128 : Shape := ⟨2, ![1, 128]⟩
abbrev S1024x10 : Shape := ⟨2, ![1024, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S524288x2, .f32⟩
  | 1 => ⟨S524288x2, .f32⟩
  | 2 => ⟨S1024x16, .f32⟩
  | 3 => ⟨S64x2, .f32⟩
  | 4 => ⟨S2x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S144x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S524288, .i32⟩
  | 17 => ⟨S524288, .i32⟩
  | 18 => ⟨S524288x2, .f32⟩
  | 19 => ⟨S_, .f32⟩
  | 20 => ⟨S524288, .f32⟩
  | 21 => ⟨S524288x1, .f32⟩
  | 22 => ⟨S64x2, .f32⟩
  | 23 => ⟨S_, .f32⟩
  | 24 => ⟨S64, .f32⟩
  | 25 => ⟨S1x64, .f32⟩
  | 26 => ⟨S524288x64, .f32⟩
  | 27 => ⟨S524288x64, .f32⟩
  | 28 => ⟨S524288x64, .f32⟩
  | 29 => ⟨S_, .f32⟩
  | 30 => ⟨S524288x2, .f32⟩
  | 31 => ⟨S524288x2, .f32⟩
  | 32 => ⟨S2x64, .f32⟩
  | 33 => ⟨S524288x64, .f32⟩
  | 34 => ⟨S524288x64, .f32⟩
  | 35 => ⟨S524288x64, .f32⟩
  | 36 => ⟨S_, .f32⟩
  | 37 => ⟨S524288x64, .f32⟩
  | 38 => ⟨S524288x64, .f32⟩
  | 39 => ⟨S524288x64, .f32⟩
  | 40 => ⟨S524288x64, .f32⟩
  | 41 => ⟨S1x64, .f32⟩
  | 42 => ⟨S524288x64, .f32⟩
  | 43 => ⟨S524288x64, .f32⟩
  | 44 => ⟨S_, .f32⟩
  | 45 => ⟨S524288x64, .f32⟩
  | 46 => ⟨S524288x64, .f32⟩
  | 47 => ⟨S524288x64, .f32⟩
  | 48 => ⟨S1x64, .f32⟩
  | 49 => ⟨S524288x64, .f32⟩
  | 50 => ⟨S524288x64, .f32⟩
  | 51 => ⟨S_, .f32⟩
  | 52 => ⟨S524288x64, .f32⟩
  | 53 => ⟨S524288x64, .f32⟩
  | 54 => ⟨S524288x1, .f32⟩
  | 55 => ⟨S1x1, .f32⟩
  | 56 => ⟨S524288x1, .f32⟩
  | 57 => ⟨S524288x1, .f32⟩
  | 58 => ⟨S524288x1, .f32⟩
  | 59 => ⟨S524288x1, .f32⟩
  | 60 => ⟨S_, .f32⟩
  | 61 => ⟨S524288x1, .f32⟩
  | 62 => ⟨S524288x1, .f32⟩
  | 63 => ⟨S_, .f32⟩
  | 64 => ⟨S524288x1, .f32⟩
  | 65 => ⟨S524288x1, .f32⟩
  | 66 => ⟨S524288x64, .f32⟩
  | 67 => ⟨S524288x64, .f32⟩
  | 68 => ⟨S_, .f32⟩
  | 69 => ⟨S1024x64, .f32⟩
  | 70 => ⟨S524288x1, .i32⟩
  | 71 => ⟨S1024x64, .f32⟩
  | 72 => ⟨S524288x2, .f32⟩
  | 73 => ⟨S_, .f32⟩
  | 74 => ⟨S524288, .f32⟩
  | 75 => ⟨S524288x1, .f32⟩
  | 76 => ⟨S64x2, .f32⟩
  | 77 => ⟨S_, .f32⟩
  | 78 => ⟨S64, .f32⟩
  | 79 => ⟨S1x64, .f32⟩
  | 80 => ⟨S524288x64, .f32⟩
  | 81 => ⟨S524288x64, .f32⟩
  | 82 => ⟨S524288x64, .f32⟩
  | 83 => ⟨S_, .f32⟩
  | 84 => ⟨S524288x2, .f32⟩
  | 85 => ⟨S524288x2, .f32⟩
  | 86 => ⟨S2x64, .f32⟩
  | 87 => ⟨S524288x64, .f32⟩
  | 88 => ⟨S524288x64, .f32⟩
  | 89 => ⟨S524288x64, .f32⟩
  | 90 => ⟨S_, .f32⟩
  | 91 => ⟨S524288x64, .f32⟩
  | 92 => ⟨S524288x64, .f32⟩
  | 93 => ⟨S524288x64, .f32⟩
  | 94 => ⟨S524288x64, .f32⟩
  | 95 => ⟨S1x64, .f32⟩
  | 96 => ⟨S524288x64, .f32⟩
  | 97 => ⟨S524288x64, .f32⟩
  | 98 => ⟨S_, .f32⟩
  | 99 => ⟨S524288x64, .f32⟩
  | 100 => ⟨S524288x64, .f32⟩
  | 101 => ⟨S524288x64, .f32⟩
  | 102 => ⟨S1x64, .f32⟩
  | 103 => ⟨S524288x64, .f32⟩
  | 104 => ⟨S524288x64, .f32⟩
  | 105 => ⟨S_, .f32⟩
  | 106 => ⟨S524288x64, .f32⟩
  | 107 => ⟨S524288x64, .f32⟩
  | 108 => ⟨S524288x1, .f32⟩
  | 109 => ⟨S1x1, .f32⟩
  | 110 => ⟨S524288x1, .f32⟩
  | 111 => ⟨S524288x1, .f32⟩
  | 112 => ⟨S524288x1, .f32⟩
  | 113 => ⟨S524288x1, .f32⟩
  | 114 => ⟨S_, .f32⟩
  | 115 => ⟨S524288x1, .f32⟩
  | 116 => ⟨S524288x1, .f32⟩
  | 117 => ⟨S_, .f32⟩
  | 118 => ⟨S524288x1, .f32⟩
  | 119 => ⟨S524288x1, .f32⟩
  | 120 => ⟨S524288x64, .f32⟩
  | 121 => ⟨S524288x64, .f32⟩
  | 122 => ⟨S_, .f32⟩
  | 123 => ⟨S1024x64, .f32⟩
  | 124 => ⟨S524288x1, .i32⟩
  | 125 => ⟨S1024x64, .f32⟩
  | 126 => ⟨S1024x144, .f32⟩
  | 127 => ⟨S1024x128, .f32⟩
  | _ => ⟨S524288x2, .f32⟩

abbrev hbmTy0_1 (i : Nat) : BufTy := match i % 128 with
  | 0 => ⟨S1x128, .f32⟩
  | 1 => ⟨S1024x128, .f32⟩
  | 2 => ⟨S1024x128, .f32⟩
  | 3 => ⟨S_, .f32⟩
  | 4 => ⟨S1024x128, .f32⟩
  | 5 => ⟨S1024x128, .f32⟩
  | 6 => ⟨S1024x128, .f32⟩
  | 7 => ⟨S1x128, .f32⟩
  | 8 => ⟨S1024x128, .f32⟩
  | 9 => ⟨S1024x128, .f32⟩
  | 10 => ⟨S_, .f32⟩
  | 11 => ⟨S1024x128, .f32⟩
  | 12 => ⟨S1024x128, .f32⟩
  | 13 => ⟨S1024x10, .f32⟩
  | 14 => ⟨S1x10, .f32⟩
  | 15 => ⟨S1024x10, .f32⟩
  | 16 => ⟨S1024x10, .f32⟩
  | _ => ⟨S524288x2, .f32⟩

abbrev hbmTy (i : Nat) : BufTy := match i / 128 with
  | 0 => hbmTy0_0 i
  | 1 => hbmTy0_1 i
  | _ => ⟨S524288x2, .f32⟩

abbrev bufTy : (tb : Table) → Fin (tcTables nBuf tb) → BufTy
  | .hbm, ⟨i, _⟩ => hbmTy i
  | _, _ => ⟨S524288x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call0_cst : Ref sig .tc := ⟨.hbm, 44, rfl⟩
abbrev main_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call1_cst : Ref sig .tc := ⟨.hbm, 51, rfl⟩
abbrev main_call1_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_3 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_7 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call3_cst : Ref sig .tc := ⟨.hbm, 105, rfl⟩
abbrev main_call3_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_10 : Ref sig .tc := ⟨.hbm, 114, rfl⟩
abbrev main_v77 : Ref sig .tc := ⟨.hbm, 115, rfl⟩
abbrev main_v78 : Ref sig .tc := ⟨.hbm, 116, rfl⟩
abbrev main_cst_11 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_12 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call4_cst : Ref sig .tc := ⟨.hbm, 131, rfl⟩
abbrev main_call4_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_call5_cst : Ref sig .tc := ⟨.hbm, 138, rfl⟩
abbrev main_call5_v0 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  reducesTo_S524288x2_S524288_d1 : S524288x2.ReducesTo [1] S524288
  h_S_ : 0 < S_.numel
  bcast_S524288_S524288x1_0 : S524288.BroadcastsInDim S524288x1 (![0] : Fin 1 → Fin S524288x1.rank)
  reducesTo_S64x2_S64_d1 : S64x2.ReducesTo [1] S64
  bcast_S64_S1x64_1 : S64.BroadcastsInDim S1x64 (![1] : Fin 1 → Fin S1x64.rank)
  bcast_S524288x1_S524288x64_0_1 : S524288x1.BroadcastsInDim S524288x64 (![0, 1] : Fin 2 → Fin S524288x64.rank)
  bcast_S1x64_S524288x64_0_1 : S1x64.BroadcastsInDim S524288x64 (![0, 1] : Fin 2 → Fin S524288x64.rank)
  bcast_S_S524288x2 : S_.BroadcastsInDim S524288x2 (![] : Fin 0 → Fin S524288x2.rank)
  transposes_S64x2_S2x64_1_0 : S64x2.Transposes [1, 0] S2x64
  bcast_S_S524288x64 : S_.BroadcastsInDim S524288x64 (![] : Fin 0 → Fin S524288x64.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288x1 : S_.BroadcastsInDim S524288x1 (![] : Fin 0 → Fin S524288x1.rank)
  bcast_S_S1024x64 : S_.BroadcastsInDim S1024x64 (![] : Fin 0 → Fin S1024x64.rank)
  concatenates_S1024x64_S1024x64_S1024x16_S1024x144_d1 : Shape.Concatenates [S1024x64, S1024x64, S1024x16] S1024x144 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  dot_S524288x2_S2x64_S524288x64_1_0_0_1_n_n_wf : DotDims.WF S524288x2 S2x64 S524288x64 [1] [0] [0] [1] [] []
  dot_S524288x64_S64x64_S524288x64_1_0_0_1_n_n_wf : DotDims.WF S524288x64 S64x64 S524288x64 [1] [0] [0] [1] [] []
  dot_S524288x64_S64x1_S524288x1_1_0_0_1_n_n_wf : DotDims.WF S524288x64 S64x1 S524288x1 [1] [0] [0] [1] [] []
  scatter_S1024x64_S524288x1_S524288x64_1_0_0_1_wf : ScatterDims.WF S1024x64 S524288x1 S524288x64 [1] [0] [0] 1
  dot_S1024x144_S144x128_S1024x128_1_0_0_1_n_n_wf : DotDims.WF S1024x144 S144x128 S1024x128 [1] [0] [0] [1] [] []
  dot_S1024x128_S128x128_S1024x128_1_0_0_1_n_n_wf : DotDims.WF S1024x128 S128x128 S1024x128 [1] [0] [0] [1] [] []
  dot_S1024x128_S128x10_S1024x10_1_0_0_1_n_n_wf : DotDims.WF S1024x128 S128x10 S1024x10 [1] [0] [0] [1] [] []

variable [Facts₀]

def dot_S524288x2_S2x64_S524288x64_1_0_0_1_n_n : DotDims S524288x2 S2x64 S524288x64 where
  lhsContracting := [1]
  rhsContracting := [0]
  lhsNonContracting := [0]
  rhsNonContracting := [1]
  lhsBatch := []
  rhsBatch := []
  wf := dot_S524288x2_S2x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf
def scatter_S1024x64_S524288x1_S524288x64_1_0_0_1 : ScatterDims S1024x64 S524288x1 S524288x64 where
  updateWindowDims := [1]
  insertedWindowDims := [0]
  scatterDimsToOperandDims := [0]
  indexVectorDim := 1
  wf := scatter_S1024x64_S524288x1_S524288x64_1_0_0_1_wf
def dot_S1024x144_S144x128_S1024x128_1_0_0_1_n_n : DotDims S1024x144 S144x128 S1024x128 where
  lhsContracting := [1]
  rhsContracting := [0]
  lhsNonContracting := [0]
  rhsNonContracting := [1]
  lhsBatch := []
  rhsBatch := []
  wf := dot_S1024x144_S144x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

class Facts : Prop extends Facts₀ where

variable [Facts]
-- ==== Proof.LibWhole.lean ====
import Idealize.ShloMosaic.Lib.Pipeline.Frame
import Idealize.ShloMosaic.Lib.Pipeline.FrameBody
import Idealize.ShloMosaic.Lib.Pipeline.Value
import Idealize.ShloMosaic.Lib.Memref

namespace Cert.LibWhole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {Val : EltTy → Type} [∀ e, Nonempty (Val e)] {κ : Kind} {sp : Space} {S : Shape} {e : EltTy}

/-- The offsets of a rank-2 whole-buffer access are all zero. -/
theorem zero_off2 : (![0, 0] : Fin 2 → Nat) = fun _ => 0 := funext fun a => by fin_cases a <;> rfl

/-- Stores whose last one fills the whole buffer read back as that store's payload: it covers every index. -/
theorem read_writes_top (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-shape load at zero offsets from a whole memref held at the contents that read `x` reads `x`. -/
theorem load_whole (m : Memref sig κ sp S e) (hm : m.IsWhole) (x : S.Idx → Val e)
    {off : Fin S.rank → Nat} (h : off = fun _ => 0) (inb : ∀ a, off a + S.size a ≤ S.size a) :
    View.readAt Val m.view (Rect.unit off S.size inb).toLoadRect (hm.unread x) = x := by
  show View.ld (m.view.read Val (hm.unread x)) (Rect.unit off S.size inb) = x
  rw [hm.read_unread, View.ld_unit_zero h]

variable {nD : Nat} {τ : Topo} {Ix : Type} [DecidableEq Ix] {Name : Type} [DecidableEq Name] {U : Type} [URA U] {Lvl : Type}

/-- A whole memref held at the contents that read `x` is owned at `x` (ownership spelt out). -/
theorem unread_intro {c : Dev nD} {m : Memref sig .tc sp S e} (hm : m.IsWhole) {q : PosShare TreeShare} {x : S.Idx → Val e} :
    (m.view.loc (c : Thread nD τ) ↦[m.view.set]{q} hm.unread x : sProp (MT nD τ sig Ix Val Name U Lvl))
      ⊢ iprop(∃ f, ⌜m.view.read Val f = x⌝ ∗ (m.view.loc (c : Thread nD τ) ↦[m.view.set]{q} f)) := by
  iintro H; iexists _; isplitr; · ipureintro; exact hm.read_unread _
  iexact H

end Cert.LibWhole
-- ==== Proof.K.B0Run.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.LibWhole

variable {F : FTy → Type} [FloatOps F]

local notation "𝕄" => MT nD τ sig Unit (Elt F) ℕ (UR sig nD τ) ℕ

/-- The body zeroes the accumulator under this test of the block-step against 0. -/
abbrev cond0_1 (i : grid0.Coords) : Prop :=
  (Scalar.cmpi .ne (Scalar.extui (Scalar.cmpi .eq (BitVec.ofNat 32 (i 0).val) 0#32)) 0#32) = 1#1

theorem hcond0_1 : ∀ t : Fin cfg0.N, cond0_1 (grid0.coords t) ↔ t.val = 0 :=
  (by decide +kernel : ∀ t : Fin grid0.N, cond0_1 (grid0.coords t) ↔ t.val = 0)

/-- The body copies the accumulator out under this test of the block-step against 255. -/
abbrev cond0_2 (i : grid0.Coords) : Prop := k0_cond2 i = 1#1

theorem hcond0_2 : ∀ t : Fin cfg0.N, cond0_2 (grid0.coords t) ↔ t.val = 255 :=
  (by decide +kernel : ∀ t : Fin grid0.N, cond0_2 (grid0.coords t) ↔ t.val = 255)

theorem liveAt0_in : ∀ (w : Fin cfg0.W), w ≠ 9 → ∀ t : Fin cfg0.N, cfg0.idle w (grid0.coords t) = false := by decide +kernel
theorem idleAt0_9 : ∀ t : Fin cfg0.N, ¬cond0_2 (grid0.coords t) → cfg0.idle 9 (grid0.coords t) = true := by decide +kernel
theorem noFlush0_9 : ∀ t : Fin cfg0.N, ¬cond0_2 (grid0.coords t) → (cfg0.win 9).flush t = false := by decide +kernel
theorem liveAt0_9 : ∀ t : Fin cfg0.N, cond0_2 (grid0.coords t) → cfg0.idle 9 (grid0.coords t) = false := by decide +kernel

/-- The body's eleven memref arguments, each a whole buffer: nine inputs, the output, the accumulator. -/
structure Stg0 where
  m1 : Memref sig .tc .vmem S2048x2 .f32
  h1 : m1.IsWhole
  m2 : Memref sig .tc .vmem S2048x1 .i32
  h2 : m2.IsWhole
  m3 : Memref sig .tc .vmem S64x2 .f32
  h3 : m3.IsWhole
  m4 : Memref sig .tc .vmem S2x64 .f32
  h4 : m4.IsWhole
  m5 : Memref sig .tc .vmem S1x64 .f32
  h5 : m5.IsWhole
  m6 : Memref sig .tc .vmem S64x64 .f32
  h6 : m6.IsWhole
  m7 : Memref sig .tc .vmem S1x64 .f32
  h7 : m7.IsWhole
  m8 : Memref sig .tc .vmem S64x1 .f32
  h8 : m8.IsWhole
  m9 : Memref sig .tc .vmem S1x1 .f32
  h9 : m9.IsWhole
  mo : Memref sig .tc .vmem S1024x64 .f32
  ho : mo.IsWhole
  ms : Memref sig .tc .vmem S1024x64 .f32
  hs : ms.IsWhole

/-- The nine input blocks of one block-step. -/
structure Blk0 (F : FTy → Type) where
  xa : Vec F S2048x2 .f32
  xb : Vec F S2048x1 .i32
  xc : Vec F S64x2 .f32
  xd : Vec F S2x64 .f32
  xe : Vec F S1x64 .f32
  xf : Vec F S64x64 .f32
  xg : Vec F S1x64 .f32
  xh : Vec F S64x1 .f32
  xk : Vec F S1x1 .f32

/-- The body's call on those memrefs. -/
abbrev Stg0.call (b : Stg0) (i : grid0.Coords) := cc0__branch_kernel (F := F) i b.m1 b.h1 b.m2 b.h2 b.m3 b.h3 b.m4 b.h4 b.m5 b.h5 b.m6 b.h6 b.m7 b.h7 b.m8 b.h8 b.m9 b.h9 b.mo b.ho b.ms b.hs

/-- The inputs' buffers at their blocks. -/
abbrev Stg0.ins (b : Stg0) (c : Dev nD) (x : Blk0 F) : sProp 𝕄 :=
  iprop(owns (c : Thread nD τ) b.m1 fullShare x.xa
    ∗ owns (c : Thread nD τ) b.m2 fullShare x.xb
    ∗ owns (c : Thread nD τ) b.m3 fullShare x.xc
    ∗ owns (c : Thread nD τ) b.m4 fullShare x.xd
    ∗ owns (c : Thread nD τ) b.m5 fullShare x.xe
    ∗ owns (c : Thread nD τ) b.m6 fullShare x.xf
    ∗ owns (c : Thread nD τ) b.m7 fullShare x.xg
    ∗ owns (c : Thread nD τ) b.m8 fullShare x.xh
    ∗ owns (c : Thread nD τ) b.m9 fullShare x.xk)

/-- One block-step's update of the accumulator. -/
abbrev Blk0.upd (x : Blk0 F) (acc : Vec F S1024x64 .f32) : Vec F S1024x64 .f32 :=
  k0_pay1 (k0_pay3 x.xb) (k0_pay4 x.xa x.xc) (k0_pay5 x.xa x.xd x.xe) x.xf (constant S2048x64 .f32 0x00000000#32) x.xg x.xh x.xk acc

set_option maxHeartbeats 1000000 in
theorem run0_A (c : Dev nD) (i : grid0.Coords) (b : Stg0) (x : Blk0 F) (hc1 : cond0_1 i) (hc2 : ¬cond0_2 i)
    (E : Set ℕ) (K : PUnit → sProp 𝕄) :
    iprop(b.ins c x ∗ (∃ d, owns (c : Thread nD τ) b.ms fullShare d)
        ∗ (iprop(b.ins c x ∗ owns (c : Thread nD τ) b.ms fullShare (x.upd k0_pay2)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%ds, %fs, -, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    View.readCov_unit_zero (S := S1024x64) _ zero_off2]

set_option maxHeartbeats 1000000 in
theorem run0_B (c : Dev nD) (i : grid0.Coords) (b : Stg0) (x : Blk0 F) (xs : Vec F S1024x64 .f32) (hc1 : ¬cond0_1 i) (hc2 : ¬cond0_2 i)
    (E : Set ℕ) (K : PUnit → sProp 𝕄) :
    iprop(b.ins c x ∗ owns (c : Thread nD τ) b.ms fullShare xs
        ∗ (iprop(b.ins c x ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

set_option maxHeartbeats 1000000 in
theorem run0_C (c : Dev nD) (i : grid0.Coords) (b : Stg0) (x : Blk0 F) (xs : Vec F S1024x64 .f32) (hc1 : ¬cond0_1 i) (hc2 : cond0_2 i)
    (E : Set ℕ) (K : PUnit → sProp 𝕄) :
    iprop(b.ins c x ∗ (∃ d, owns (c : Thread nD τ) b.mo fullShare d) ∗ owns (c : Thread nD τ) b.ms fullShare xs
        ∗ (iprop(b.ins c x ∗ owns (c : Thread nD τ) b.mo fullShare (x.upd xs) ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%dO, %fo, -, HO⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  isplitl [HO]
  · iexists _; isplitr; swap; · iexact HO
    ipureintro
    try sl_unfold_words
    rw [read_writes_top _ _ zero_off2, View.readCov_unit_zero (S := S1024x64) _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
      load_whole ms hms xs zero_off2]
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

end Cert.Kernel.Hand

end
-- ==== Proof.K.B0.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.K.B0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def step0 (c : Dev nD) (t : Fin cfg0.N) (acc : Vec F S1024x64 .f32) : Vec F S1024x64 .f32 :=
  k0_pay1 (k0_pay3 (iblk0 V c 1 t)) (k0_pay4 (iblk0 V c 0 t) (iblk0 V c 2 t)) (k0_pay5 (iblk0 V c 0 t) (iblk0 V c 3 t) (iblk0 V c 4 t))
    (iblk0 V c 5 t) (constant S2048x64 .f32 0x00000000#32) (iblk0 V c 6 t) (iblk0 V c 7 t) (iblk0 V c 8 t) acc

def accAt0 (c : Dev nD) : (n : ℕ) → n < cfg0.N → Vec F S1024x64 .f32
  | 0, h => step0 V c ⟨0, h⟩ k0_pay2
  | n + 1, h => step0 V c ⟨n + 1, h⟩ (accAt0 c n (Nat.lt_of_succ_lt h))

theorem accAt0_zero (c : Dev nD) (h : 0 < cfg0.N) : accAt0 V c 0 h = step0 V c ⟨0, h⟩ k0_pay2 := rfl
theorem accAt0_succ (c : Dev nD) (n : ℕ) (h : n + 1 < cfg0.N) :
    accAt0 V c (n + 1) h = step0 V c ⟨n + 1, h⟩ (accAt0 V c n (Nat.lt_of_succ_lt h)) := rfl

abbrev scr0 : Memref sig .tc .vmem S1024x64 .f32 := Memref.whole cc0_scratch0

def Phi0 (c : Dev nD) : (n : ℕ) → n ≤ cfg0.N → sProp 𝕄
  | 0, _ => Pipeline.ΦA spec0 c
  | n + 1, hn => iprop(owns (c : Thread nD τ) scr0 fullShare (accAt0 V c n hn)
      ∗ Pipeline.scopedRestBut spec0 c [cc0_scratch0] ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiA0_eq (c : Dev nD) :
    (Pipeline.ΦA spec0 c : sProp 𝕄)
      = iprop(iprop(iprop(∃ d, owns (c : Thread nD τ) scr0 fullShare d) ∗ Pipeline.scopedRestBut spec0 c [cc0_scratch0]) ∗ (∃ r, prngReg c r)) := by
  unfold Pipeline.ΦA; rw [scopedRest0_split]; simp only [scr0, owns_whole]; try rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scr0 fullShare (accAt0 V c n hn)
      ∗ Pipeline.scopedRestBut spec0 c [cc0_scratch0] ∗ (∃ r, prngReg c r)) := rfl

theorem Phi0_pos (c : Dev nD) (n : ℕ) (h : n ≤ cfg0.N) (hz : n ≠ 0) :
    Phi0 V c n h = iprop(owns (c : Thread nD τ) scr0 fullShare (accAt0 V c (n - 1) (by omega))
      ∗ Pipeline.scopedRestBut spec0 c [cc0_scratch0] ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

theorem accAt0_first (c : Dev nD) (t : Fin cfg0.N) (h : t.val = 0) : accAt0 V c t.val t.isLt = step0 V c t k0_pay2 := by
  obtain ⟨n, hn⟩ := t
  cases n with
  | zero => rfl
  | succ n => exact absurd h (Nat.succ_ne_zero _)

theorem accAt0_next (c : Dev nD) (t : Fin cfg0.N) (h : t.val ≠ 0) :
    accAt0 V c t.val t.isLt = step0 V c t (accAt0 V c (t.val - 1) (Nat.lt_of_le_of_lt (Nat.sub_le _ _) t.isLt)) := by
  obtain ⟨n, hn⟩ := t
  cases n with
  | zero => exact absurd rfl h
  | succ n => rfl

/-- The body's memref arguments at block-step `t`. -/
abbrev stgs0 (t : Fin cfg0.N) : Stg0 :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    scr0, Memref.isWhole_whole _⟩

/-- The input blocks of block-step `t`. -/
abbrev blks0 (c : Dev nD) (t : Fin cfg0.N) : Blk0 F :=
  ⟨iblk0 V c 0 t, iblk0 V c 1 t, iblk0 V c 2 t, iblk0 V c 3 t, iblk0 V c 4 t, iblk0 V c 5 t, iblk0 V c 6 t, iblk0 V c 7 t, iblk0 V c 8 t⟩

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d

theorem leaves0_9 (c : Dev nD) (t : Fin cfg0.N) (hc2 : cond0_2 (grid0.coords t)) :
    (dat0 V c).leavesExact 9 t = owns (c : Thread nD τ) (stgs0 t).mo fullShare (accAt0 V c t.val t.isLt) := by
  unfold Dat.leavesExact; rw [liveAt0_9 t hc2] <;> rfl

def bodyPre0 (c : Dev nD) (t : Fin cfg0.N) : sProp 𝕄 :=
  iprop((dat0 V c).Φ t.castSucc ∗ (dat0 V c).owesAt () t.castSucc
    ∗ (∃ d, owns (c : Thread nD τ) (stgs0 t).m1 fullShare ((dat0 V c).before 0 t d))
    ∗ (∃ d, owns (c : Thread nD τ) (stgs0 t).m2 fullShare ((dat0 V c).before 1 t d))
    ∗ (∃ d, owns (c : Thread nD τ) (stgs0 t).m3 fullShare ((dat0 V c).before 2 t d))
    ∗ (∃ d, owns (c : Thread nD τ) (stgs0 t).m4 fullShare ((dat0 V c).before 3 t d))
    ∗ (∃ d, owns (c : Thread nD τ) (stgs0 t).m5 fullShare ((dat0 V c).before 4 t d))
    ∗ (∃ d, owns (c : Thread nD τ) (stgs0 t).m6 fullShare ((dat0 V c).before 5 t d))
    ∗ (∃ d, owns (c : Thread nD τ) (stgs0 t).m7 fullShare ((dat0 V c).before 6 t d))
    ∗ (∃ d, owns (c : Thread nD τ) (stgs0 t).m8 fullShare ((dat0 V c).before 7 t d))
    ∗ (∃ d, owns (c : Thread nD τ) (stgs0 t).m9 fullShare ((dat0 V c).before 8 t d))
    ∗ (∃ d, owns (c : Thread nD τ) (stgs0 t).mo fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (stgs0 t).m1 fullShare (iblk0 V c 0 t)
    ∗ owns (c : Thread nD τ) (stgs0 t).m2 fullShare (iblk0 V c 1 t)
    ∗ owns (c : Thread nD τ) (stgs0 t).m3 fullShare (iblk0 V c 2 t)
    ∗ owns (c : Thread nD τ) (stgs0 t).m4 fullShare (iblk0 V c 3 t)
    ∗ owns (c : Thread nD τ) (stgs0 t).m5 fullShare (iblk0 V c 4 t)
    ∗ owns (c : Thread nD τ) (stgs0 t).m6 fullShare (iblk0 V c 5 t)
    ∗ owns (c : Thread nD τ) (stgs0 t).m7 fullShare (iblk0 V c 6 t)
    ∗ owns (c : Thread nD τ) (stgs0 t).m8 fullShare (iblk0 V c 7 t)
    ∗ owns (c : Thread nD τ) (stgs0 t).m9 fullShare (iblk0 V c 8 t)
    ∗ (dat0 V c).leavesExact 9 t)

set_option maxHeartbeats 4800000 in
/-- The body at any block-step: the closed forms of the two conditionals pick the control case, whose run takes the
    accumulator from what the block-step before left (anything at block-step 0) to this block-step's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = Phi0 V c (t.val + 1) t.isLt from rfl, Phi0_succ]
  have hN : t.val < 256 := lt_of_lt_of_eq t.isLt (show cfg0.N = 256 from N_0)
  by_cases h2 : t.val = 255
  · have hc2 : cond0_2 (grid0.coords t) := (hcond0_2 t).mpr h2
    have hc1 : ¬cond0_1 (grid0.coords t) := fun h => by have := (hcond0_1 t).mp h; omega
    have h1 : t.val ≠ 0 := by omega
    rw [leaves0_9 V c t hc2, Phi0_castSucc V c t, Phi0_pos V c _ _ h1, accAt0_next V c t h1]; unfold step0
    iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
    iapply (run0_C c (grid0.coords t) (stgs0 t) (blks0 V c t) (accAt0 V c (t.val - 1) (Nat.lt_of_le_of_lt (Nat.sub_le _ _) t.isLt)) hc1 hc2 Set.univ _)
    unfold Stg0.ins
    iframe Ha Hb Hc Hd He Hf Hgg Hh Hk HS
    isplitl [HO]; · iexists _; iexact HO
    iintro ⟨⟨Ha, Hb, Hc, Hd, He, Hf, Hgg, Hh, Hk⟩, HO, HS⟩
    iframe
  · have hc2 : ¬cond0_2 (grid0.coords t) := fun h => h2 ((hcond0_2 t).mp h)
    rw [Dat.leavesExact_idle (dat0 V c) 9 t (idleAt0_9 t hc2) (noFlush0_9 t hc2)]
    by_cases h1 : t.val = 0
    · have hc1 : cond0_1 (grid0.coords t) := (hcond0_1 t).mpr h1
      rw [Phi0_castSucc V c t, Phi0_zero V c _ _ h1, PhiA0_eq, accAt0_first V c t h1]; unfold step0
      iintro ⟨⟨⟨HS, Hr⟩, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run0_A c (grid0.coords t) (stgs0 t) (blks0 V c t) hc1 hc2 Set.univ _)
      unfold Stg0.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO
    · have hc1 : ¬cond0_1 (grid0.coords t) := fun h => h1 ((hcond0_1 t).mp h)
      rw [Phi0_castSucc V c t, Phi0_pos V c _ _ h1, accAt0_next V c t h1]; unfold step0
      iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run0_B c (grid0.coords t) (stgs0 t) (blks0 V c t) (accAt0 V c (t.val - 1) (Nat.lt_of_le_of_lt (Nat.sub_le _ _) t.isLt)) hc1 hc2 Set.univ _)
      unfold Stg0.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = Phi0 V c 0 (Nat.zero_le _) from rfl]
  exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨HS, Ho, Hg⟩
  isplitl [HS Ho]
  · isplitl [HS]
    · iexists _; iexact HS
    · iexact Ho
  · iexact Hg

theorem isIn0 : ∀ w : Fin cfg0.W, w ≠ 9 → (cfg0.win w).isOut = false := by decide

theorem arrAt0_in (c : Dev nD) (w : Fin cfg0.W) (hw : w ≠ 9) : (dat0 V c).arrAt w cfg0.N = V c (Pipeline.arrRef spec0 w) :=
  ((dat0 V c).arrAt_in w (isIn0 w hw) cfg0.N).trans (A_eq0 V c w)

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

abbrev tLast0 : Fin cfg0.N := ⟨255, by decide⟩

theorem last0_9 (t : Fin cfg0.N) (hf : (cfg0.win 9).flush t = true) : t = tLast0 := by
  have h := (flush0_9 t).mp hf
  have hN : t.val < 256 := lt_of_lt_of_eq t.isLt N_0
  exact Fin.ext (by show t.val = 255; omega)

theorem flushed0_9 (c : Dev nD) (t : Fin cfg0.N) (hf : (cfg0.win 9).flush t = true) :
    (dat0 V c).flushed 9 t = ((cfg0.win 9).blk t).view.read (Elt F) (accAt0 V c 255 (by decide)) := by
  have ht := last0_9 t hf
  subst ht
  funext j
  rw [View.read_apply]
  show accAt0 V c 255 tLast0.isLt ((cfg0.win 9).xinj (grid0.coords tLast0) j)
    = accAt0 V c 255 tLast0.isLt (((cfg0.win 9).blk tLast0).view.emb j)
  refine congrArg (accAt0 V c 255 tLast0.isLt) (funext fun a => Fin.ext ?_)
  obtain ⟨e0, e1⟩ := idx0_9 tLast0
  match a with
  | ⟨0, _⟩ =>
    show (j 0).val = win0_9.index tLast0 (0 : Fin 2) * 1024 + 1 * (j 0).val
    omega
  | ⟨1, _⟩ =>
    show (j 1).val = win0_9.index tLast0 (1 : Fin 2) * 64 + 1 * (j 1).val
    omega

theorem cover0_9 (i : S1024x64.Idx) :
    ∃ t : Fin cfg0.N, (cfg0.win 9).flush t = true ∧ i ∈ ((cfg0.win 9).blk t).view.set := by
  refine ⟨tLast0, (flush0_9 tLast0).mpr (by decide), ?_⟩
  show i ∈ ((View.whole main_v4).slice (win0_9.rect tLast0)).set
  rw [View.set_slice_whole, Rect.mem_set_unit]
  obtain ⟨e0, e1⟩ := idx0_9 tLast0
  intro a
  match a with
  | ⟨0, _⟩ =>
    show win0_9.index tLast0 (0 : Fin 2) * 1024 ≤ (i 0).val ∧ (i 0).val < win0_9.index tLast0 (0 : Fin 2) * 1024 + 1024
    have hi : (i 0).val < 1024 := (i 0).isLt
    omega
  | ⟨1, _⟩ =>
    show win0_9.index tLast0 (1 : Fin 2) * 64 ≤ (i 1).val ∧ (i 1).val < win0_9.index tLast0 (1 : Fin 2) * 64 + 64
    have hi : (i 1).val < 64 := (i 1).isLt
    omega

theorem arrAt0_out (c : Dev nD) : (dat0 V c).arrAt 9 cfg0.N = accAt0 V c 255 (by decide) :=
  (dat0 V c).arrAt_eq_of_cover 9 (accAt0 V c 255 (by decide)) (fun t hf => flushed0_9 V c t hf) cover0_9

end Cert.Kernel.Hand

end
-- ==== Proof.K.B1Run.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.LibWhole

variable {F : FTy → Type} [FloatOps F]

local notation "𝕄" => MT nD τ sig Unit (Elt F) ℕ (UR sig nD τ) ℕ

/-- The body zeroes the accumulator under this test of the block-step against 0. -/
abbrev cond1_1 (i : grid1.Coords) : Prop :=
  (Scalar.cmpi .ne (Scalar.extui (Scalar.cmpi .eq (BitVec.ofNat 32 (i 0).val) 0#32)) 0#32) = 1#1

theorem hcond1_1 : ∀ t : Fin cfg1.N, cond1_1 (grid1.coords t) ↔ t.val = 0 :=
  (by decide +kernel : ∀ t : Fin grid1.N, cond1_1 (grid1.coords t) ↔ t.val = 0)

/-- The body copies the accumulator out under this test of the block-step against 255. -/
abbrev cond1_2 (i : grid1.Coords) : Prop := k1_cond2 i = 1#1

theorem hcond1_2 : ∀ t : Fin cfg1.N, cond1_2 (grid1.coords t) ↔ t.val = 255 :=
  (by decide +kernel : ∀ t : Fin grid1.N, cond1_2 (grid1.coords t) ↔ t.val = 255)

theorem liveAt1_in : ∀ (w : Fin cfg1.W), w ≠ 9 → ∀ t : Fin cfg1.N, cfg1.idle w (grid1.coords t) = false := by decide +kernel
theorem idleAt1_9 : ∀ t : Fin cfg1.N, ¬cond1_2 (grid1.coords t) → cfg1.idle 9 (grid1.coords t) = true := by decide +kernel
theorem noFlush1_9 : ∀ t : Fin cfg1.N, ¬cond1_2 (grid1.coords t) → (cfg1.win 9).flush t = false := by decide +kernel
theorem liveAt1_9 : ∀ t : Fin cfg1.N, cond1_2 (grid1.coords t) → cfg1.idle 9 (grid1.coords t) = false := by decide +kernel

/-- The body's eleven memref arguments, each a whole buffer: nine inputs, the output, the accumulator. -/
structure Stg1 where
  m1 : Memref sig .tc .vmem S2048x2 .f32
  h1 : m1.IsWhole
  m2 : Memref sig .tc .vmem S2048x1 .i32
  h2 : m2.IsWhole
  m3 : Memref sig .tc .vmem S64x2 .f32
  h3 : m3.IsWhole
  m4 : Memref sig .tc .vmem S2x64 .f32
  h4 : m4.IsWhole
  m5 : Memref sig .tc .vmem S1x64 .f32
  h5 : m5.IsWhole
  m6 : Memref sig .tc .vmem S64x64 .f32
  h6 : m6.IsWhole
  m7 : Memref sig .tc .vmem S1x64 .f32
  h7 : m7.IsWhole
  m8 : Memref sig .tc .vmem S64x1 .f32
  h8 : m8.IsWhole
  m9 : Memref sig .tc .vmem S1x1 .f32
  h9 : m9.IsWhole
  mo : Memref sig .tc .vmem S1024x64 .f32
  ho : mo.IsWhole
  ms : Memref sig .tc .vmem S1024x64 .f32
  hs : ms.IsWhole

/-- The nine input blocks of one block-step. -/
structure Blk1 (F : FTy → Type) where
  xa : Vec F S2048x2 .f32
  xb : Vec F S2048x1 .i32
  xc : Vec F S64x2 .f32
  xd : Vec F S2x64 .f32
  xe : Vec F S1x64 .f32
  xf : Vec F S64x64 .f32
  xg : Vec F S1x64 .f32
  xh : Vec F S64x1 .f32
  xk : Vec F S1x1 .f32

/-- The body's call on those memrefs. -/
abbrev Stg1.call (b : Stg1) (i : grid1.Coords) := cc1__branch_kernel (F := F) i b.m1 b.h1 b.m2 b.h2 b.m3 b.h3 b.m4 b.h4 b.m5 b.h5 b.m6 b.h6 b.m7 b.h7 b.m8 b.h8 b.m9 b.h9 b.mo b.ho b.ms b.hs

/-- The inputs' buffers at their blocks. -/
abbrev Stg1.ins (b : Stg1) (c : Dev nD) (x : Blk1 F) : sProp 𝕄 :=
  iprop(owns (c : Thread nD τ) b.m1 fullShare x.xa
    ∗ owns (c : Thread nD τ) b.m2 fullShare x.xb
    ∗ owns (c : Thread nD τ) b.m3 fullShare x.xc
    ∗ owns (c : Thread nD τ) b.m4 fullShare x.xd
    ∗ owns (c : Thread nD τ) b.m5 fullShare x.xe
    ∗ owns (c : Thread nD τ) b.m6 fullShare x.xf
    ∗ owns (c : Thread nD τ) b.m7 fullShare x.xg
    ∗ owns (c : Thread nD τ) b.m8 fullShare x.xh
    ∗ owns (c : Thread nD τ) b.m9 fullShare x.xk)

/-- One block-step's update of the accumulator. -/
abbrev Blk1.upd (x : Blk1 F) (acc : Vec F S1024x64 .f32) : Vec F S1024x64 .f32 :=
  k1_pay1 (k1_pay3 x.xb) (k1_pay4 x.xa x.xc) (k1_pay5 x.xa x.xd x.xe) x.xf (constant S2048x64 .f32 0x00000000#32) x.xg x.xh x.xk acc

set_option maxHeartbeats 1000000 in
theorem run1_A (c : Dev nD) (i : grid1.Coords) (b : Stg1) (x : Blk1 F) (hc1 : cond1_1 i) (hc2 : ¬cond1_2 i)
    (E : Set ℕ) (K : PUnit → sProp 𝕄) :
    iprop(b.ins c x ∗ (∃ d, owns (c : Thread nD τ) b.ms fullShare d)
        ∗ (iprop(b.ins c x ∗ owns (c : Thread nD τ) b.ms fullShare (x.upd k1_pay2)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%ds, %fs, -, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    View.readCov_unit_zero (S := S1024x64) _ zero_off2]

set_option maxHeartbeats 1000000 in
theorem run1_B (c : Dev nD) (i : grid1.Coords) (b : Stg1) (x : Blk1 F) (xs : Vec F S1024x64 .f32) (hc1 : ¬cond1_1 i) (hc2 : ¬cond1_2 i)
    (E : Set ℕ) (K : PUnit → sProp 𝕄) :
    iprop(b.ins c x ∗ owns (c : Thread nD τ) b.ms fullShare xs
        ∗ (iprop(b.ins c x ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

set_option maxHeartbeats 1000000 in
theorem run1_C (c : Dev nD) (i : grid1.Coords) (b : Stg1) (x : Blk1 F) (xs : Vec F S1024x64 .f32) (hc1 : ¬cond1_1 i) (hc2 : cond1_2 i)
    (E : Set ℕ) (K : PUnit → sProp 𝕄) :
    iprop(b.ins c x ∗ (∃ d, owns (c : Thread nD τ) b.mo fullShare d) ∗ owns (c : Thread nD τ) b.ms fullShare xs
        ∗ (iprop(b.ins c x ∗ owns (c : Thread nD τ) b.mo fullShare (x.upd xs) ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%dO, %fo, -, HO⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  isplitl [HO]
  · iexists _; isplitr; swap; · iexact HO
    ipureintro
    try sl_unfold_words
    rw [read_writes_top _ _ zero_off2, View.readCov_unit_zero (S := S1024x64) _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
      load_whole ms hms xs zero_off2]
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

end Cert.Kernel.Hand

end
-- ==== Proof.K.B1.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.K.B1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def step1 (c : Dev nD) (t : Fin cfg1.N) (acc : Vec F S1024x64 .f32) : Vec F S1024x64 .f32 :=
  k1_pay1 (k1_pay3 (iblk1 V c 1 t)) (k1_pay4 (iblk1 V c 0 t) (iblk1 V c 2 t)) (k1_pay5 (iblk1 V c 0 t) (iblk1 V c 3 t) (iblk1 V c 4 t))
    (iblk1 V c 5 t) (constant S2048x64 .f32 0x00000000#32) (iblk1 V c 6 t) (iblk1 V c 7 t) (iblk1 V c 8 t) acc

def accAt1 (c : Dev nD) : (n : ℕ) → n < cfg1.N → Vec F S1024x64 .f32
  | 0, h => step1 V c ⟨0, h⟩ k1_pay2
  | n + 1, h => step1 V c ⟨n + 1, h⟩ (accAt1 c n (Nat.lt_of_succ_lt h))

theorem accAt1_zero (c : Dev nD) (h : 0 < cfg1.N) : accAt1 V c 0 h = step1 V c ⟨0, h⟩ k1_pay2 := rfl
theorem accAt1_succ (c : Dev nD) (n : ℕ) (h : n + 1 < cfg1.N) :
    accAt1 V c (n + 1) h = step1 V c ⟨n + 1, h⟩ (accAt1 V c n (Nat.lt_of_succ_lt h)) := rfl

abbrev scr1 : Memref sig .tc .vmem S1024x64 .f32 := Memref.whole cc1_scratch0

def Phi1 (c : Dev nD) : (n : ℕ) → n ≤ cfg1.N → sProp 𝕄
  | 0, _ => Pipeline.ΦA spec1 c
  | n + 1, hn => iprop(owns (c : Thread nD τ) scr1 fullShare (accAt1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => accAt1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiA1_eq (c : Dev nD) :
    (Pipeline.ΦA spec1 c : sProp 𝕄)
      = iprop(iprop(iprop(∃ d, owns (c : Thread nD τ) scr1 fullShare d) ∗ Pipeline.scopedRestBut spec1 c [cc1_scratch0]) ∗ (∃ r, prngReg c r)) := by
  unfold Pipeline.ΦA; rw [scopedRest1_split]; simp only [scr1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scr1 fullShare (accAt1 V c n hn)
      ∗ Pipeline.scopedRestBut spec1 c [cc1_scratch0] ∗ (∃ r, prngReg c r)) := rfl

theorem Phi1_pos (c : Dev nD) (n : ℕ) (h : n ≤ cfg1.N) (hz : n ≠ 0) :
    Phi1 V c n h = iprop(owns (c : Thread nD τ) scr1 fullShare (accAt1 V c (n - 1) (by omega))
      ∗ Pipeline.scopedRestBut spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

theorem accAt1_first (c : Dev nD) (t : Fin cfg1.N) (h : t.val = 0) : accAt1 V c t.val t.isLt = step1 V c t k1_pay2 := by
  obtain ⟨n, hn⟩ := t
  cases n with
  | zero => rfl
  | succ n => exact absurd h (Nat.succ_ne_zero _)

theorem accAt1_next (c : Dev nD) (t : Fin cfg1.N) (h : t.val ≠ 0) :
    accAt1 V c t.val t.isLt = step1 V c t (accAt1 V c (t.val - 1) (Nat.lt_of_le_of_lt (Nat.sub_le _ _) t.isLt)) := by
  obtain ⟨n, hn⟩ := t
  cases n with
  | zero => exact absurd rfl h
  | succ n => rfl

/-- The body's memref arguments at block-step `t`. -/
abbrev stgs1 (t : Fin cfg1.N) : Stg1 :=
  ⟨win1_0.stage (cfg1.slots t 0), hstage1_0 ((cfg1.slots t 0).cast nbuf1_0),
    win1_1.stage (cfg1.slots t 1), hstage1_1 ((cfg1.slots t 1).cast nbuf1_1),
    win1_2.stage (cfg1.slots t 2), hstage1_2 ((cfg1.slots t 2).cast nbuf1_2),
    win1_3.stage (cfg1.slots t 3), hstage1_3 ((cfg1.slots t 3).cast nbuf1_3),
    win1_4.stage (cfg1.slots t 4), hstage1_4 ((cfg1.slots t 4).cast nbuf1_4),
    win1_5.stage (cfg1.slots t 5), hstage1_5 ((cfg1.slots t 5).cast nbuf1_5),
    win1_6.stage (cfg1.slots t 6), hstage1_6 ((cfg1.slots t 6).cast nbuf1_6),
    win1_7.stage (cfg1.slots t 7), hstage1_7 ((cfg1.slots t 7).cast nbuf1_7),
    win1_8.stage (cfg1.slots t 8), hstage1_8 ((cfg1.slots t 8).cast nbuf1_8),
    win1_9.stage (cfg1.slots t 9), hstage1_9 ((cfg1.slots t 9).cast nbuf1_9),
    scr1, Memref.isWhole_whole _⟩

/-- The input blocks of block-step `t`. -/
abbrev blks1 (c : Dev nD) (t : Fin cfg1.N) : Blk1 F :=
  ⟨iblk1 V c 0 t, iblk1 V c 1 t, iblk1 V c 2 t, iblk1 V c 3 t, iblk1 V c 4 t, iblk1 V c 5 t, iblk1 V c 6 t, iblk1 V c 7 t, iblk1 V c 8 t⟩

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d

theorem leaves1_9 (c : Dev nD) (t : Fin cfg1.N) (hc2 : cond1_2 (grid1.coords t)) :
    (dat1 V c).leavesExact 9 t = owns (c : Thread nD τ) (stgs1 t).mo fullShare (accAt1 V c t.val t.isLt) := by
  unfold Dat.leavesExact; rw [liveAt1_9 t hc2] <;> rfl

def bodyPre1 (c : Dev nD) (t : Fin cfg1.N) : sProp 𝕄 :=
  iprop((dat1 V c).Φ t.castSucc ∗ (dat1 V c).owesAt () t.castSucc
    ∗ (∃ d, owns (c : Thread nD τ) (stgs1 t).m1 fullShare ((dat1 V c).before 0 t d))
    ∗ (∃ d, owns (c : Thread nD τ) (stgs1 t).m2 fullShare ((dat1 V c).before 1 t d))
    ∗ (∃ d, owns (c : Thread nD τ) (stgs1 t).m3 fullShare ((dat1 V c).before 2 t d))
    ∗ (∃ d, owns (c : Thread nD τ) (stgs1 t).m4 fullShare ((dat1 V c).before 3 t d))
    ∗ (∃ d, owns (c : Thread nD τ) (stgs1 t).m5 fullShare ((dat1 V c).before 4 t d))
    ∗ (∃ d, owns (c : Thread nD τ) (stgs1 t).m6 fullShare ((dat1 V c).before 5 t d))
    ∗ (∃ d, owns (c : Thread nD τ) (stgs1 t).m7 fullShare ((dat1 V c).before 6 t d))
    ∗ (∃ d, owns (c : Thread nD τ) (stgs1 t).m8 fullShare ((dat1 V c).before 7 t d))
    ∗ (∃ d, owns (c : Thread nD τ) (stgs1 t).m9 fullShare ((dat1 V c).before 8 t d))
    ∗ (∃ d, owns (c : Thread nD τ) (stgs1 t).mo fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (stgs1 t).m1 fullShare (iblk1 V c 0 t)
    ∗ owns (c : Thread nD τ) (stgs1 t).m2 fullShare (iblk1 V c 1 t)
    ∗ owns (c : Thread nD τ) (stgs1 t).m3 fullShare (iblk1 V c 2 t)
    ∗ owns (c : Thread nD τ) (stgs1 t).m4 fullShare (iblk1 V c 3 t)
    ∗ owns (c : Thread nD τ) (stgs1 t).m5 fullShare (iblk1 V c 4 t)
    ∗ owns (c : Thread nD τ) (stgs1 t).m6 fullShare (iblk1 V c 5 t)
    ∗ owns (c : Thread nD τ) (stgs1 t).m7 fullShare (iblk1 V c 6 t)
    ∗ owns (c : Thread nD τ) (stgs1 t).m8 fullShare (iblk1 V c 7 t)
    ∗ owns (c : Thread nD τ) (stgs1 t).m9 fullShare (iblk1 V c 8 t)
    ∗ (dat1 V c).leavesExact 9 t)

set_option maxHeartbeats 4800000 in
/-- The body at any block-step: the closed forms of the two conditionals pick the control case, whose run takes the
    accumulator from what the block-step before left (anything at block-step 0) to this block-step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = Phi1 V c (t.val + 1) t.isLt from rfl, Phi1_succ]
  have hN : t.val < 256 := lt_of_lt_of_eq t.isLt (show cfg1.N = 256 from N_1)
  by_cases h2 : t.val = 255
  · have hc2 : cond1_2 (grid1.coords t) := (hcond1_2 t).mpr h2
    have hc1 : ¬cond1_1 (grid1.coords t) := fun h => by have := (hcond1_1 t).mp h; omega
    have h1 : t.val ≠ 0 := by omega
    rw [leaves1_9 V c t hc2, Phi1_castSucc V c t, Phi1_pos V c _ _ h1, accAt1_next V c t h1]; unfold step1
    iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
    iapply (run1_C c (grid1.coords t) (stgs1 t) (blks1 V c t) (accAt1 V c (t.val - 1) (Nat.lt_of_le_of_lt (Nat.sub_le _ _) t.isLt)) hc1 hc2 Set.univ _)
    unfold Stg1.ins
    iframe Ha Hb Hc Hd He Hf Hgg Hh Hk HS
    isplitl [HO]; · iexists _; iexact HO
    iintro ⟨⟨Ha, Hb, Hc, Hd, He, Hf, Hgg, Hh, Hk⟩, HO, HS⟩
    iframe
  · have hc2 : ¬cond1_2 (grid1.coords t) := fun h => h2 ((hcond1_2 t).mp h)
    rw [Dat.leavesExact_idle (dat1 V c) 9 t (idleAt1_9 t hc2) (noFlush1_9 t hc2)]
    by_cases h1 : t.val = 0
    · have hc1 : cond1_1 (grid1.coords t) := (hcond1_1 t).mpr h1
      rw [Phi1_castSucc V c t, Phi1_zero V c _ _ h1, PhiA1_eq, accAt1_first V c t h1]; unfold step1
      iintro ⟨⟨⟨HS, Hr⟩, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run1_A c (grid1.coords t) (stgs1 t) (blks1 V c t) hc1 hc2 Set.univ _)
      unfold Stg1.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO
    · have hc1 : ¬cond1_1 (grid1.coords t) := fun h => h1 ((hcond1_1 t).mp h)
      rw [Phi1_castSucc V c t, Phi1_pos V c _ _ h1, accAt1_next V c t h1]; unfold step1
      iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run1_B c (grid1.coords t) (stgs1 t) (blks1 V c t) (accAt1 V c (t.val - 1) (Nat.lt_of_le_of_lt (Nat.sub_le _ _) t.isLt)) hc1 hc2 Set.univ _)
      unfold Stg1.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Phi1 V c 0 (Nat.zero_le _) from rfl]
  exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨HS, Ho, Hg⟩
  isplitl [HS Ho]
  · isplitl [HS]
    · iexists _; iexact HS
    · iexact Ho
  · iexact Hg

theorem isIn1 : ∀ w : Fin cfg1.W, w ≠ 9 → (cfg1.win w).isOut = false := by decide

theorem arrAt1_in (c : Dev nD) (w : Fin cfg1.W) (hw : w ≠ 9) : (dat1 V c).arrAt w cfg1.N = V c (Pipeline.arrRef spec1 w) :=
  ((dat1 V c).arrAt_in w (isIn1 w hw) cfg1.N).trans (A_eq1 V c w)

theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

abbrev tLast1 : Fin cfg1.N := ⟨255, by decide⟩

theorem last1_9 (t : Fin cfg1.N) (hf : (cfg1.win 9).flush t = true) : t = tLast1 := by
  have h := (flush1_9 t).mp hf
  have hN : t.val < 256 := lt_of_lt_of_eq t.isLt N_1
  exact Fin.ext (by show t.val = 255; omega)

theorem flushed1_9 (c : Dev nD) (t : Fin cfg1.N) (hf : (cfg1.win 9).flush t = true) :
    (dat1 V c).flushed 9 t = ((cfg1.win 9).blk t).view.read (Elt F) (accAt1 V c 255 (by decide)) := by
  have ht := last1_9 t hf
  subst ht
  funext j
  rw [View.read_apply]
  show accAt1 V c 255 tLast1.isLt ((cfg1.win 9).xinj (grid1.coords tLast1) j)
    = accAt1 V c 255 tLast1.isLt (((cfg1.win 9).blk tLast1).view.emb j)
  refine congrArg (accAt1 V c 255 tLast1.isLt) (funext fun a => Fin.ext ?_)
  obtain ⟨e0, e1⟩ := idx1_9 tLast1
  match a with
  | ⟨0, _⟩ =>
    show (j 0).val = win1_9.index tLast1 (0 : Fin 2) * 1024 + 1 * (j 0).val
    omega
  | ⟨1, _⟩ =>
    show (j 1).val = win1_9.index tLast1 (1 : Fin 2) * 64 + 1 * (j 1).val
    omega

theorem cover1_9 (i : S1024x64.Idx) :
    ∃ t : Fin cfg1.N, (cfg1.win 9).flush t = true ∧ i ∈ ((cfg1.win 9).blk t).view.set := by
  refine ⟨tLast1, (flush1_9 tLast1).mpr (by decide), ?_⟩
  show i ∈ ((View.whole main_v9).slice (win1_9.rect tLast1)).set
  rw [View.set_slice_whole, Rect.mem_set_unit]
  obtain ⟨e0, e1⟩ := idx1_9 tLast1
  intro a
  match a with
  | ⟨0, _⟩ =>
    show win1_9.index tLast1 (0 : Fin 2) * 1024 ≤ (i 0).val ∧ (i 0).val < win1_9.index tLast1 (0 : Fin 2) * 1024 + 1024
    have hi : (i 0).val < 1024 := (i 0).isLt
    omega
  | ⟨1, _⟩ =>
    show win1_9.index tLast1 (1 : Fin 2) * 64 ≤ (i 1).val ∧ (i 1).val < win1_9.index tLast1 (1 : Fin 2) * 64 + 64
    have hi : (i 1).val < 64 := (i 1).isLt
    omega

theorem arrAt1_out (c : Dev nD) : (dat1 V c).arrAt 9 cfg1.N = accAt1 V c 255 (by decide) :=
  (dat1 V c).arrAt_eq_of_cover 9 (accAt1 V c 255 (by decide)) (fun t hf => flushed1_9 V c t hf) cover1_9

end Cert.Kernel.Hand

end
-- ==== Proof.K.M2Run.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen Cert.LibWhole

variable {F : FTy → Type} [FloatOps F]

local notation "𝕄" => MT nD τ sig Unit (Elt F) ℕ (UR sig nD τ) ℕ

abbrev box_1024x64 : Rect S1024x64 := Rect.unit (s := S1024x64) ![0, 0] S1024x64.size inb_S1024x64_S1024x64_0_0
abbrev box_1024x16 : Rect S1024x16 := Rect.unit (s := S1024x16) ![0, 0] S1024x16.size inb_S1024x16_S1024x16_0_0
abbrev box_64x128 : Rect S64x128 := Rect.unit (s := S64x128) ![0, 0] S64x128.size inb_S64x128_S64x128_0_0
abbrev box_16x128 : Rect S16x128 := Rect.unit (s := S16x128) ![0, 0] S16x128.size inb_S16x128_S16x128_0_0
abbrev box_1x128 : Rect S1x128 := Rect.unit (s := S1x128) ![0, 0] S1x128.size inb_S1x128_S1x128_0_0
abbrev box_128x128 : Rect S128x128 := Rect.unit (s := S128x128) ![0, 0] S128x128.size inb_S128x128_S128x128_0_0
abbrev box_128x10 : Rect S128x10 := Rect.unit (s := S128x10) ![0, 0] S128x10.size inb_S128x10_S128x10_0_0
abbrev box_1x10 : Rect S1x10 := Rect.unit (s := S1x10) ![0, 0] S1x10.size inb_S1x10_S1x10_0_0
abbrev box_1024x10 : Rect S1024x10 := Rect.unit (s := S1024x10) ![0, 0] S1024x10.size inb_S1024x10_S1024x10_0_0

/-- What the classifier's one store leaves in the output block: the layers' result of the eleven input blocks, as a canonical piece list. -/
def stored2 (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) : Vec F S1024x10 .f32 :=
  View.canon [⟨box_1024x10, k2_pay1 (k2_pay2 (View.ld x0 box_1024x64) (View.ld x3 box_64x128) (View.ld x1 box_1024x64) (View.ld x4 box_64x128) (View.ld x2 box_1024x16) (View.ld x5 box_16x128) (View.ld x6 box_1x128) (View.ld x7 box_128x128) (View.ld x8 box_1x128) (View.ld x9 box_128x10)) (View.ld x10 box_1x10)⟩]

theorem cover2 (p0 : Vec F S1024x10 .f32) (y : S1024x10.Idx) :
    ∃ pc ∈ ([⟨box_1024x10, p0⟩] : List (View.Piece (Elt F) S1024x10 .f32)), y ∈ pc.1.set :=
  ⟨_, List.mem_singleton_self _, View.mem_set_unit_zero (S := S1024x10) zero_off2 inb_S1024x10_S1024x10_0_0 y⟩

theorem stored2_eq (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) :
    stored2 x0 x1 x2 x3 x4 x5 x6 x7 x8 x9 x10 = k2_pay1 (k2_pay2 x0 x3 x1 x4 x2 x5 x6 x7 x8 x9) x10 := by
  unfold stored2
  rw [View.canon_unit_zero zero_off2]
  rw [View.ld_unit_zero (S := S1024x64) zero_off2 _ x0,
    View.ld_unit_zero (S := S1024x64) zero_off2 _ x1,
    View.ld_unit_zero (S := S1024x16) zero_off2 _ x2,
    View.ld_unit_zero (S := S64x128) zero_off2 _ x3,
    View.ld_unit_zero (S := S64x128) zero_off2 _ x4,
    View.ld_unit_zero (S := S16x128) zero_off2 _ x5,
    View.ld_unit_zero (S := S1x128) zero_off2 _ x6,
    View.ld_unit_zero (S := S128x128) zero_off2 _ x7,
    View.ld_unit_zero (S := S1x128) zero_off2 _ x8,
    View.ld_unit_zero (S := S128x10) zero_off2 _ x9,
    View.ld_unit_zero (S := S1x10) zero_off2 _ x10]

set_option maxHeartbeats 1000000 in
/-- The classifier's body on whole memrefs: the inputs come back as they were, the output block holds the layers' result. -/
theorem sound_kernel2 (c : Dev nD) (E : Set ℕ) (i : grid2.Coords) (arg1 : Memref sig .tc .vmem S1024x64 .f32) (harg1 : arg1.IsWhole) (arg2 : Memref sig .tc .vmem S1024x64 .f32) (harg2 : arg2.IsWhole) (arg3 : Memref sig .tc .vmem S1024x16 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x10 .f32) (harg10 : arg10.IsWhole) (arg11 : Memref sig .tc .vmem S1x10 .f32) (harg11 : arg11.IsWhole) (arg12 : Memref sig .tc .vmem S1024x10 .f32) (harg12 : arg12.IsWhole)
    (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k2_pay1 (k2_pay2 x0 x3 x1 x4 x2 x5 x6 x7 x8 x9) x10)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12) K := by
  rw [← stored2_eq x0 x1 x2 x3 x4 x5 x6 x7 x8 x9 x10]
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover2 _)

end Cert.Kernel.Hand

end
-- ==== Proof.K.M2.lean ====
import proofs.«421210_j62689342652499_1_alg».proof.Proof.Gen.Kernel.Launch
import proofs.«421210_j62689342652499_1_alg».proof.Proof.Gen.Kernel.Skeleton
import proofs.«421210_j62689342652499_1_alg».proof.Proof.Gen.Kernel.Points
import proofs.«421210_j62689342652499_1_alg».proof.Proof.K.M2Run
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (x0 : Vec F S1024x64 .f32) (x1 : Vec F S1024x64 .f32) (x2 : Vec F S1024x16 .f32) (x3 : Vec F S64x128 .f32)
    (x4 : Vec F S64x128 .f32) (x5 : Vec F S16x128 .f32) (x6 : Vec F S1x128 .f32) (x7 : Vec F S128x128 .f32)
    (x8 : Vec F S1x128 .f32) (x9 : Vec F S128x10 .f32) (x10 : Vec F S1x10 .f32) : Vec F S1024x10 .f32 :=
  k2_pay1 (k2_pay2 x0 x3 x1 x4 x2 x5 x6 x7 x8 x9) x10

def res2 (c : Dev nD) (t : Fin cfg2.N) : Vec F S1024x10 .f32 :=
  out2 (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => res2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_11 (c : Dev nD) (t : Fin cfg2.N) : (dat2 V c).after 11 t = res2 V c t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d
theorem before2_9 (c : Dev nD) (t : Fin cfg2.N) (d) : (dat2 V c).before 9 t d = iblk2 V c 9 t :=
  (dat2 V c).before_in_eq_fetched 9 rfl (fun _ => rfl) (fun _ _ _ => rfl) (fun _ => rfl) t d
theorem before2_10 (c : Dev nD) (t : Fin cfg2.N) (d) : (dat2 V c).before 10 t d = iblk2 V c 10 t :=
  (dat2 V c).before_in_eq_fetched 10 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ owns (c : Thread nD τ) (st2_8 t) fullShare (iblk2 V c 8 t)
    ∗ owns (c : Thread nD τ) (st2_9 t) fullShare (iblk2 V c 9 t)
    ∗ owns (c : Thread nD τ) (st2_10 t) fullShare (iblk2 V c 10 t)
    ∗ owns (c : Thread nD τ) (st2_11 t) fullShare (res2 V c t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl]
  unfold res2 out2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  iframe H0 H1 H2 H3 H4 H5 H6 H7 H8 H9 H10
  isplitl [H11]; · iexists _; iexact H11
  iintro ⟨H0, H1, H2, H3, H4, H5, H6, H7, H8, H9, H10, H11⟩
  iframe

theorem body_obligation2 (c : Dev nD) : BodyObligation (dat2 (F := F) V c) (defs₀ (F := F)) Variants.none () Set.univ := fun t => by
  rw [bigSep_W2, bigSep_W2]
  exact sound_body2 V c t

theorem isIn2 : ∀ w : Fin 12, w ≠ 11 → (win2 w).isOut = false := by decide

theorem arrAt2_in (c : Dev nD) (w : Fin cfg2.W) (hw : w ≠ 11) : (dat2 V c).arrAt w cfg2.N = V c (Pipeline.arrRef spec2 w) :=
  ((dat2 V c).arrAt_in w (isIn2 w hw) cfg2.N).trans (A_eq2 V c w)

theorem index2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

theorem flushed2_eq (c : Dev nD) (t : Fin cfg2.N) :
    (dat2 V c).flushed 11 t = ((cfg2.win 11).blk t).view.read (Elt F) (res2 V c t2_0) := by
  rw [fin_N2 t]
  show (cfg2.win 11).cut (grid2.coords t2_0) ((dat2 V c).after 11 t2_0) = _
  rw [after2_11]
  obtain ⟨e0, e1⟩ := index2_11 t2_0
  funext j
  show res2 V c t2_0 _ = res2 V c t2_0 (((cfg2.win 11).blk t2_0).view.emb j)
  refine congrArg _ ?_
  funext a; apply Fin.ext
  match a with
  | ⟨0, _⟩ => show (j 0).val = win2_11.index t2_0 (0 : Fin 2) * 1024 + 1 * (j 0).val; omega
  | ⟨1, _⟩ => show (j 1).val = win2_11.index t2_0 (1 : Fin 2) * 10 + 1 * (j 1).val; omega

theorem cover2_11 (i : S1024x10.Idx) :
    ∃ t : Fin cfg2.N, (cfg2.win 11).flush t = true ∧ i ∈ ((cfg2.win 11).blk t).view.set := by
  refine ⟨t2_0, flush2_11 t2_0, ?_⟩
  show i ∈ ((View.whole main_v16).slice (win2_11.rect t2_0)).set
  rw [View.set_slice_whole, Rect.mem_set_unit]
  obtain ⟨e0, e1⟩ := index2_11 t2_0
  have h0 : (i 0).val < 1024 := (i 0).isLt
  have h1 : (i 1).val < 10 := (i 1).isLt
  intro a
  match a with
  | ⟨0, _⟩ => show win2_11.index t2_0 (0 : Fin 2) * 1024 ≤ (i 0).val ∧ (i 0).val < win2_11.index t2_0 (0 : Fin 2) * 1024 + 1024; omega
  | ⟨1, _⟩ => show win2_11.index t2_0 (1 : Fin 2) * 10 ≤ (i 1).val ∧ (i 1).val < win2_11.index t2_0 (1 : Fin 2) * 10 + 10; omega

theorem arrAt2_out (c : Dev nD) : (dat2 V c).arrAt 11 cfg2.N = res2 V c t2_0 :=
  (dat2 V c).arrAt_eq_of_cover 11 (res2 V c t2_0) (fun t _ => flushed2_eq V c t) cover2_11

end Cert.Kernel.Hand

end
-- ==== Proof.K.Launch.lean ====
import proofs.«421210_j62689342652499_1_alg».proof.Proof.K.B0
import proofs.«421210_j62689342652499_1_alg».proof.Proof.K.B1
import proofs.«421210_j62689342652499_1_alg».proof.Proof.K.M2
import proofs.«421210_j62689342652499_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev entry0 : (c : Dev nD) → (b : Ref sig .tc) → Buf (Elt F) ((c : Thread nD τ).loc b) := fun c b => Gen.V1 m c b

def outsA (m : (ℓ : Loc nD τ sig) → Buf (Elt F) ℓ) : Gen.Outs (F := F) := fun _ r c =>
  Function.update (Gen.V1 m c) main_v4 ((dat0 (entry0 m) c).arrAt 9 cfg0.N) r

def outsB (m : (ℓ : Loc nD τ sig) → Buf (Elt F) ℓ) : Gen.Outs (F := F) := fun J r c =>
  match J with
  | 2 => outsA m 2 r c
  | _ => Function.update (Gen.V3 m (outsA m) c) main_v9 ((dat1 (fun c b => Gen.V3 m (outsA m) c b) c).arrAt 9 cfg1.N) r

def outs (m : (ℓ : Loc nD τ sig) → Buf (Elt F) ℓ) : Gen.Outs (F := F) := fun J r c =>
  match J with
  | 2 => outsA m 2 r c
  | 4 => outsB m 4 r c
  | _ => Function.update (Gen.V5 m (outsB m) c) main_v16 ((dat2 (fun c b => Gen.V5 m (outsB m) c b) c).arrAt 11 cfg2.N) r

abbrev entry1 : (c : Dev nD) → (b : Ref sig .tc) → Buf (Elt F) ((c : Thread nD τ).loc b) := fun c b => Gen.V3 m (outs m) c b
abbrev entry2 : (c : Dev nD) → (b : Ref sig .tc) → Buf (Elt F) ((c : Thread nD τ).loc b) := fun c b => Gen.V5 m (outs m) c b

theorem entry1_eq : entry1 m = fun c (b : Ref sig .tc) => Gen.V3 m (outsA m) c b := rfl
theorem entry2_eq : entry2 m = fun c (b : Ref sig .tc) => Gen.V5 m (outsB m) c b := rfl

theorem outs_main_v4 (c : Dev nD) : outs m 2 main_v4 c = (dat0 (entry0 m) c).arrAt 9 cfg0.N := by
  show Function.update (Gen.V1 m c) main_v4 ((dat0 (entry0 m) c).arrAt 9 cfg0.N) main_v4 = _
  exact Function.update_self ..
theorem outs_main_v9 (c : Dev nD) : outs m 4 main_v9 c = (dat1 (entry1 m) c).arrAt 9 cfg1.N := by
  show Function.update (Gen.V3 m (outsA m) c) main_v9 ((dat1 (fun c b => Gen.V3 m (outsA m) c b) c).arrAt 9 cfg1.N) main_v9 = _
  exact Function.update_self ..
theorem outs_main_v16 (c : Dev nD) : outs m 6 main_v16 c = (dat2 (entry2 m) c).arrAt 11 cfg2.N := by
  show Function.update (Gen.V5 m (outsB m) c) main_v16 ((dat2 (fun c b => Gen.V5 m (outsB m) c b) c).arrAt 11 cfg2.N) main_v16 = _
  exact Function.update_self ..

theorem V5_main_v4 (c : Dev nD) : Gen.V5 m (outs m) c main_v4 = accAt0 (entry0 m) c 255 (by decide) := by
  rw [Gen.V5_of m (outs m) c main_v4 (by decide), Gen.V4_of m (outs m) c main_v4 (by decide),
    Gen.V3_of m (outs m) c main_v4 (by decide)]
  show Function.update (Gen.V1 m c) main_v4 (outs m 2 main_v4 c) main_v4 = _
  rw [Function.update_self, outs_main_v4, arrAt0_out]

theorem V5_main_v9 (c : Dev nD) : Gen.V5 m (outs m) c main_v9 = accAt1 (entry1 m) c 255 (by decide) := by
  rw [Gen.V5_of m (outs m) c main_v9 (by decide)]
  show Function.update (Gen.V3 m (outs m) c) main_v9 (outs m 4 main_v9 c) main_v9 = _
  rw [Function.update_self, outs_main_v9, arrAt1_out]

theorem V6_main_v16 (c : Dev nD) : Gen.V6 m (outs m) c main_v16 = res2 (entry2 m) c t2_0 := by
  show Function.update (Gen.V5 m (outs m) c) main_v16 (outs m 6 main_v16 c) main_v16 = _
  rw [Function.update_self, outs_main_v16, arrAt2_out]

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

abbrev noL : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

abbrev exit0 : (c : Dev nD) → (b : Ref sig .tc) → Buf (Elt F) ((c : Thread nD τ).loc b) := fun c b => Gen.V2 m (outs m) c b
abbrev exit1 : (c : Dev nD) → (b : Ref sig .tc) → Buf (Elt F) ((c : Thread nD τ).loc b) := fun c b => Gen.V4 m (outs m) c b
abbrev exit2 : (c : Dev nD) → (b : Ref sig .tc) → Buf (Elt F) ((c : Thread nD τ).loc b) := fun c b => Gen.V6 m (outs m) c b

theorem exitArr0 (c : Dev nD) (w : Fin cfg0.W) :
    (dat0 (entry0 m) c).arrAt w cfg0.N = exit0 m c (Pipeline.arrRef spec0 w) := by
  by_cases hw : w = 9
  · subst hw
    show _ = Function.update (Gen.V1 m c) main_v4 (outs m 2 main_v4 c) main_v4
    rw [Function.update_self, outs_main_v4]
  · rw [arrAt0_in (entry0 m) c w hw]
    refine (Gen.V2_of m (outs m) c (Pipeline.arrRef spec0 w) ?_).symm
    revert hw; revert w; decide
theorem exitRest0 (c : Dev nD) : ∀ b : Ref sig .tc, b ∉ Finset.univ.image (Pipeline.arrRef spec0) →
    exit0 m c b = entry0 m c b := fun b hb =>
  Gen.V2_of m (outs m) c b fun h => hb (Finset.mem_image.mpr ⟨9, Finset.mem_univ _, (List.mem_singleton.mp h).symm⟩)

theorem exitArr1 (c : Dev nD) (w : Fin cfg1.W) :
    (dat1 (entry1 m) c).arrAt w cfg1.N = exit1 m c (Pipeline.arrRef spec1 w) := by
  by_cases hw : w = 9
  · subst hw
    show _ = Function.update (Gen.V3 m (outs m) c) main_v9 (outs m 4 main_v9 c) main_v9
    rw [Function.update_self, outs_main_v9]
  · rw [arrAt1_in (entry1 m) c w hw]
    refine (Gen.V4_of m (outs m) c (Pipeline.arrRef spec1 w) ?_).symm
    revert hw; revert w; decide
theorem exitRest1 (c : Dev nD) : ∀ b : Ref sig .tc, b ∉ Finset.univ.image (Pipeline.arrRef spec1) →
    exit1 m c b = entry1 m c b := fun b hb =>
  Gen.V4_of m (outs m) c b fun h => hb (Finset.mem_image.mpr ⟨9, Finset.mem_univ _, (List.mem_singleton.mp h).symm⟩)

theorem exitArr2 (c : Dev nD) (w : Fin cfg2.W) :
    (dat2 (entry2 m) c).arrAt w cfg2.N = exit2 m c (Pipeline.arrRef spec2 w) := by
  by_cases hw : w = 11
  · subst hw
    show _ = Function.update (Gen.V5 m (outs m) c) main_v16 (outs m 6 main_v16 c) main_v16
    rw [Function.update_self, outs_main_v16]
  · rw [arrAt2_in (entry2 m) c w hw]
    refine (Gen.V6_of m (outs m) c (Pipeline.arrRef spec2 w) ?_).symm
    revert hw; revert w; decide
theorem exitRest2 (c : Dev nD) : ∀ b : Ref sig .tc, b ∉ Finset.univ.image (Pipeline.arrRef spec2) →
    exit2 m c b = entry2 m c b := fun b hb =>
  Gen.V6_of m (outs m) c b fun h => hb (Finset.mem_image.mpr ⟨11, Finset.mem_univ _, (List.mem_singleton.mp h).symm⟩)

set_option backward.isDefEq.respectTransparency.types false in

def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noL noLv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noL noLv 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ noL noLv 2 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem rest_owes (c : Dev nD) : rest (F := F) c ⊢ (iprop(∃ W, owes (c : Thread nD τ) (0 : CellTallies nD τ sig Unit) W) : sProp 𝕄) := by
  iintro ⟨-, H⟩; iexact H

/-- What the run leaves on core `c`: the result array at the last region's output, every argument as it was. -/
abbrev kept (c : Dev nD) (mem : (ℓ : Loc nD τ sig) → Buf (Elt F) ℓ) : Prop :=
  mem ((c.tc : Thread nD τ).loc main_v16) = Gen.V6 m (outs m) c main_v16
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)

set_option backward.isDefEq.respectTransparency.types false in

theorem run : θ_run defs (onTc (τ := τ) (main (F := F))) ⟨m, fun _ => 0, ρ⟩ (fun r => ∀ c : Dev nD, kept m c r.2.mem) := by
  refine Pipeline.θ_run_regions_kit_dev (pcfgs (F := F)) adm (pdats m) () cellOf_inj emb₁ defs₀ Variants.none noL noLv m ρ main
    (Gen.segs m (outs m) Variants.none noL noLv (fun _ => rest) () (pdats m) (reg0 m) (reg1 m) (reg2 m))
    (fun c Q => by
      rewrite [main_chain c, Pipeline.Seg.run_eq_chain,
        show (Gen.segs m (outs m) Variants.none noL noLv (fun _ => rest) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V6 m (outs m) c))
    (hch := fun c => ⟨.rfl, .rfl, .rfl, .rfl, .rfl, .rfl, sep_mono .rfl (rest_owes c)⟩)
    (hinit := ?_)
    (QY := fun c s => kept m c s.mem)
    (hfin := fun c s' => ?_) (hQ := fun _ h => h)
  ·
    refine Pipeline.initEach noL noLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      have hk := fun (b : Ref sig .tc) hb => h (Proc.devRef .tc b) (Finset.mem_filter.mpr ⟨StableHlo.devRef_mem_tcRefs b, hb⟩)
      exact ⟨hk main_v16 (by decide),
        (hk main_arg0 (by decide)).trans (Gen.V6_main_arg0 m (outs m) c),
        (hk main_arg1 (by decide)).trans (Gen.V6_main_arg1 m (outs m) c),
        (hk main_arg2 (by decide)).trans (Gen.V6_main_arg2 m (outs m) c),
        (hk main_arg3 (by decide)).trans (Gen.V6_main_arg3 m (outs m) c),
        (hk main_arg4 (by decide)).trans (Gen.V6_main_arg4 m (outs m) c),
        (hk main_arg5 (by decide)).trans (Gen.V6_main_arg5 m (outs m) c),
        (hk main_arg6 (by decide)).trans (Gen.V6_main_arg6 m (outs m) c),
        (hk main_arg7 (by decide)).trans (Gen.V6_main_arg7 m (outs m) c),
        (hk main_arg8 (by decide)).trans (Gen.V6_main_arg8 m (outs m) c),
        (hk main_arg9 (by decide)).trans (Gen.V6_main_arg9 m (outs m) c),
        (hk main_arg10 (by decide)).trans (Gen.V6_main_arg10 m (outs m) c),
        (hk main_arg11 (by decide)).trans (Gen.V6_main_arg11 m (outs m) c),
        (hk main_arg12 (by decide)).trans (Gen.V6_main_arg12 m (outs m) c),
        (hk main_arg13 (by decide)).trans (Gen.V6_main_arg13 m (outs m) c),
        (hk main_arg14 (by decide)).trans (Gen.V6_main_arg14 m (outs m) c),
        (hk main_arg15 (by decide)).trans (Gen.V6_main_arg15 m (outs m) c),
        (hk main_arg16 (by decide)).trans (Gen.V6_main_arg16 m (outs m) c),
        (hk main_arg17 (by decide)).trans (Gen.V6_main_arg17 m (outs m) c)⟩
    · iexact HSI

end Cert.Kernel.Hand

end
-- ==== Proof.KI.B0Run.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.LibWhole

variable {F : FTy → Type} [FloatOps F]

local notation "𝕄" => MT nD τ sig Unit (Elt F) ℕ (UR sig nD τ) ℕ

/-- The body zeroes the accumulator under this test of the block-step against 0. -/
abbrev cond0_1 (i : grid0.Coords) : Prop :=
  (Scalar.cmpi .ne (Scalar.extui (Scalar.cmpi .eq (BitVec.ofNat 32 (i 0).val) 0#32)) 0#32) = 1#1

theorem hcond0_1 : ∀ t : Fin cfg0.N, cond0_1 (grid0.coords t) ↔ t.val = 0 :=
  (by decide +kernel : ∀ t : Fin grid0.N, cond0_1 (grid0.coords t) ↔ t.val = 0)

/-- The body copies the accumulator out under this test of the block-step against 255. -/
abbrev cond0_2 (i : grid0.Coords) : Prop := k0_cond2 i = 1#1

theorem hcond0_2 : ∀ t : Fin cfg0.N, cond0_2 (grid0.coords t) ↔ t.val = 255 :=
  (by decide +kernel : ∀ t : Fin grid0.N, cond0_2 (grid0.coords t) ↔ t.val = 255)

theorem liveAt0_in : ∀ (w : Fin cfg0.W), w ≠ 9 → ∀ t : Fin cfg0.N, cfg0.idle w (grid0.coords t) = false := by decide +kernel
theorem idleAt0_9 : ∀ t : Fin cfg0.N, ¬cond0_2 (grid0.coords t) → cfg0.idle 9 (grid0.coords t) = true := by decide +kernel
theorem noFlush0_9 : ∀ t : Fin cfg0.N, ¬cond0_2 (grid0.coords t) → (cfg0.win 9).flush t = false := by decide +kernel
theorem liveAt0_9 : ∀ t : Fin cfg0.N, cond0_2 (grid0.coords t) → cfg0.idle 9 (grid0.coords t) = false := by decide +kernel

/-- The body's eleven memref arguments, each a whole buffer: nine inputs, the output, the accumulator. -/
structure Stg0 where
  m1 : Memref sig .tc .vmem S2048x2 .f32
  h1 : m1.IsWhole
  m2 : Memref sig .tc .vmem S2048x1 .i32
  h2 : m2.IsWhole
  m3 : Memref sig .tc .vmem S64x2 .f32
  h3 : m3.IsWhole
  m4 : Memref sig .tc .vmem S2x64 .f32
  h4 : m4.IsWhole
  m5 : Memref sig .tc .vmem S1x64 .f32
  h5 : m5.IsWhole
  m6 : Memref sig .tc .vmem S64x64 .f32
  h6 : m6.IsWhole
  m7 : Memref sig .tc .vmem S1x64 .f32
  h7 : m7.IsWhole
  m8 : Memref sig .tc .vmem S64x1 .f32
  h8 : m8.IsWhole
  m9 : Memref sig .tc .vmem S1x1 .f32
  h9 : m9.IsWhole
  mo : Memref sig .tc .vmem S1024x64 .f32
  ho : mo.IsWhole
  ms : Memref sig .tc .vmem S1024x64 .f32
  hs : ms.IsWhole

/-- The nine input blocks of one block-step. -/
structure Blk0 (F : FTy → Type) where
  xa : Vec F S2048x2 .f32
  xb : Vec F S2048x1 .i32
  xc : Vec F S64x2 .f32
  xd : Vec F S2x64 .f32
  xe : Vec F S1x64 .f32
  xf : Vec F S64x64 .f32
  xg : Vec F S1x64 .f32
  xh : Vec F S64x1 .f32
  xk : Vec F S1x1 .f32

/-- The body's call on those memrefs. -/
abbrev Stg0.call (b : Stg0) (i : grid0.Coords) := cc0__branch_kernel (F := F) i b.m1 b.h1 b.m2 b.h2 b.m3 b.h3 b.m4 b.h4 b.m5 b.h5 b.m6 b.h6 b.m7 b.h7 b.m8 b.h8 b.m9 b.h9 b.mo b.ho b.ms b.hs

/-- The inputs' buffers at their blocks. -/
abbrev Stg0.ins (b : Stg0) (c : Dev nD) (x : Blk0 F) : sProp 𝕄 :=
  iprop(owns (c : Thread nD τ) b.m1 fullShare x.xa
    ∗ owns (c : Thread nD τ) b.m2 fullShare x.xb
    ∗ owns (c : Thread nD τ) b.m3 fullShare x.xc
    ∗ owns (c : Thread nD τ) b.m4 fullShare x.xd
    ∗ owns (c : Thread nD τ) b.m5 fullShare x.xe
    ∗ owns (c : Thread nD τ) b.m6 fullShare x.xf
    ∗ owns (c : Thread nD τ) b.m7 fullShare x.xg
    ∗ owns (c : Thread nD τ) b.m8 fullShare x.xh
    ∗ owns (c : Thread nD τ) b.m9 fullShare x.xk)

/-- One block-step's update of the accumulator. -/
abbrev Blk0.upd (x : Blk0 F) (acc : Vec F S1024x64 .f32) : Vec F S1024x64 .f32 :=
  k0_pay1 (k0_pay3 x.xb) (k0_pay4 x.xa x.xc) (k0_pay5 x.xa x.xd x.xe) x.xf (constant S2048x64 .f32 0x00000000#32) x.xg x.xh x.xk acc

set_option maxHeartbeats 1000000 in
theorem run0_A (c : Dev nD) (i : grid0.Coords) (b : Stg0) (x : Blk0 F) (hc1 : cond0_1 i) (hc2 : ¬cond0_2 i)
    (E : Set ℕ) (K : PUnit → sProp 𝕄) :
    iprop(b.ins c x ∗ (∃ d, owns (c : Thread nD τ) b.ms fullShare d)
        ∗ (iprop(b.ins c x ∗ owns (c : Thread nD τ) b.ms fullShare (x.upd k0_pay2)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%ds, %fs, -, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    View.readCov_unit_zero (S := S1024x64) _ zero_off2]

set_option maxHeartbeats 1000000 in
theorem run0_B (c : Dev nD) (i : grid0.Coords) (b : Stg0) (x : Blk0 F) (xs : Vec F S1024x64 .f32) (hc1 : ¬cond0_1 i) (hc2 : ¬cond0_2 i)
    (E : Set ℕ) (K : PUnit → sProp 𝕄) :
    iprop(b.ins c x ∗ owns (c : Thread nD τ) b.ms fullShare xs
        ∗ (iprop(b.ins c x ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

set_option maxHeartbeats 1000000 in
theorem run0_C (c : Dev nD) (i : grid0.Coords) (b : Stg0) (x : Blk0 F) (xs : Vec F S1024x64 .f32) (hc1 : ¬cond0_1 i) (hc2 : cond0_2 i)
    (E : Set ℕ) (K : PUnit → sProp 𝕄) :
    iprop(b.ins c x ∗ (∃ d, owns (c : Thread nD τ) b.mo fullShare d) ∗ owns (c : Thread nD τ) b.ms fullShare xs
        ∗ (iprop(b.ins c x ∗ owns (c : Thread nD τ) b.mo fullShare (x.upd xs) ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg0.call, Stg0.ins, Blk0.upd]
  simp only [cc0__branch_kernel_eq_skeleton]; unfold cc0__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%dO, %fo, -, HO⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  isplitl [HO]
  · iexists _; isplitr; swap; · iexact HO
    ipureintro
    try sl_unfold_words
    rw [read_writes_top _ _ zero_off2, View.readCov_unit_zero (S := S1024x64) _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
      load_whole ms hms xs zero_off2]
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

end Cert.KernelIdeal.Hand

end
-- ==== Proof.KI.B0.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.KI.B0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def step0 (c : Dev nD) (t : Fin cfg0.N) (acc : Vec F S1024x64 .f32) : Vec F S1024x64 .f32 :=
  k0_pay1 (k0_pay3 (iblk0 V c 1 t)) (k0_pay4 (iblk0 V c 0 t) (iblk0 V c 2 t)) (k0_pay5 (iblk0 V c 0 t) (iblk0 V c 3 t) (iblk0 V c 4 t))
    (iblk0 V c 5 t) (constant S2048x64 .f32 0x00000000#32) (iblk0 V c 6 t) (iblk0 V c 7 t) (iblk0 V c 8 t) acc

def accAt0 (c : Dev nD) : (n : ℕ) → n < cfg0.N → Vec F S1024x64 .f32
  | 0, h => step0 V c ⟨0, h⟩ k0_pay2
  | n + 1, h => step0 V c ⟨n + 1, h⟩ (accAt0 c n (Nat.lt_of_succ_lt h))

theorem accAt0_zero (c : Dev nD) (h : 0 < cfg0.N) : accAt0 V c 0 h = step0 V c ⟨0, h⟩ k0_pay2 := rfl
theorem accAt0_succ (c : Dev nD) (n : ℕ) (h : n + 1 < cfg0.N) :
    accAt0 V c (n + 1) h = step0 V c ⟨n + 1, h⟩ (accAt0 V c n (Nat.lt_of_succ_lt h)) := rfl

abbrev scr0 : Memref sig .tc .vmem S1024x64 .f32 := Memref.whole cc0_scratch0

def Phi0 (c : Dev nD) : (n : ℕ) → n ≤ cfg0.N → sProp 𝕄
  | 0, _ => Pipeline.ΦA spec0 c
  | n + 1, hn => iprop(owns (c : Thread nD τ) scr0 fullShare (accAt0 V c n hn)
      ∗ Pipeline.scopedRestBut spec0 c [cc0_scratch0] ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => accAt0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiA0_eq (c : Dev nD) :
    (Pipeline.ΦA spec0 c : sProp 𝕄)
      = iprop(iprop(iprop(∃ d, owns (c : Thread nD τ) scr0 fullShare d) ∗ Pipeline.scopedRestBut spec0 c [cc0_scratch0]) ∗ (∃ r, prngReg c r)) := by
  unfold Pipeline.ΦA; rw [scopedRest0_split]; simp only [scr0, owns_whole]; try rfl

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(owns (c : Thread nD τ) scr0 fullShare (accAt0 V c n hn)
      ∗ Pipeline.scopedRestBut spec0 c [cc0_scratch0] ∗ (∃ r, prngReg c r)) := rfl

theorem Phi0_pos (c : Dev nD) (n : ℕ) (h : n ≤ cfg0.N) (hz : n ≠ 0) :
    Phi0 V c n h = iprop(owns (c : Thread nD τ) scr0 fullShare (accAt0 V c (n - 1) (by omega))
      ∗ Pipeline.scopedRestBut spec0 c [cc0_scratch0] ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

theorem accAt0_first (c : Dev nD) (t : Fin cfg0.N) (h : t.val = 0) : accAt0 V c t.val t.isLt = step0 V c t k0_pay2 := by
  obtain ⟨n, hn⟩ := t
  cases n with
  | zero => rfl
  | succ n => exact absurd h (Nat.succ_ne_zero _)

theorem accAt0_next (c : Dev nD) (t : Fin cfg0.N) (h : t.val ≠ 0) :
    accAt0 V c t.val t.isLt = step0 V c t (accAt0 V c (t.val - 1) (Nat.lt_of_le_of_lt (Nat.sub_le _ _) t.isLt)) := by
  obtain ⟨n, hn⟩ := t
  cases n with
  | zero => exact absurd rfl h
  | succ n => rfl

/-- The body's memref arguments at block-step `t`. -/
abbrev stgs0 (t : Fin cfg0.N) : Stg0 :=
  ⟨win0_0.stage (cfg0.slots t 0), hstage0_0 ((cfg0.slots t 0).cast nbuf0_0),
    win0_1.stage (cfg0.slots t 1), hstage0_1 ((cfg0.slots t 1).cast nbuf0_1),
    win0_2.stage (cfg0.slots t 2), hstage0_2 ((cfg0.slots t 2).cast nbuf0_2),
    win0_3.stage (cfg0.slots t 3), hstage0_3 ((cfg0.slots t 3).cast nbuf0_3),
    win0_4.stage (cfg0.slots t 4), hstage0_4 ((cfg0.slots t 4).cast nbuf0_4),
    win0_5.stage (cfg0.slots t 5), hstage0_5 ((cfg0.slots t 5).cast nbuf0_5),
    win0_6.stage (cfg0.slots t 6), hstage0_6 ((cfg0.slots t 6).cast nbuf0_6),
    win0_7.stage (cfg0.slots t 7), hstage0_7 ((cfg0.slots t 7).cast nbuf0_7),
    win0_8.stage (cfg0.slots t 8), hstage0_8 ((cfg0.slots t 8).cast nbuf0_8),
    win0_9.stage (cfg0.slots t 9), hstage0_9 ((cfg0.slots t 9).cast nbuf0_9),
    scr0, Memref.isWhole_whole _⟩

/-- The input blocks of block-step `t`. -/
abbrev blks0 (c : Dev nD) (t : Fin cfg0.N) : Blk0 F :=
  ⟨iblk0 V c 0 t, iblk0 V c 1 t, iblk0 V c 2 t, iblk0 V c 3 t, iblk0 V c 4 t, iblk0 V c 5 t, iblk0 V c 6 t, iblk0 V c 7 t, iblk0 V c 8 t⟩

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
theorem before0_6 (c : Dev nD) (t : Fin cfg0.N) (d) : (dat0 V c).before 6 t d = iblk0 V c 6 t :=
  (dat0 V c).before_in_eq_fetched 6 rfl (fun _ => rfl) (fun _ _ _ => rfl) (fun _ => rfl) t d
theorem before0_7 (c : Dev nD) (t : Fin cfg0.N) (d) : (dat0 V c).before 7 t d = iblk0 V c 7 t :=
  (dat0 V c).before_in_eq_fetched 7 rfl (fun _ => rfl) (fun _ _ _ => rfl) (fun _ => rfl) t d
theorem before0_8 (c : Dev nD) (t : Fin cfg0.N) (d) : (dat0 V c).before 8 t d = iblk0 V c 8 t :=
  (dat0 V c).before_in_eq_fetched 8 rfl (fun _ => rfl) (fun _ _ _ => rfl) (fun _ => rfl) t d

theorem leaves0_9 (c : Dev nD) (t : Fin cfg0.N) (hc2 : cond0_2 (grid0.coords t)) :
    (dat0 V c).leavesExact 9 t = owns (c : Thread nD τ) (stgs0 t).mo fullShare (accAt0 V c t.val t.isLt) := by
  unfold Dat.leavesExact; rw [liveAt0_9 t hc2] <;> rfl

def bodyPre0 (c : Dev nD) (t : Fin cfg0.N) : sProp 𝕄 :=
  iprop((dat0 V c).Φ t.castSucc ∗ (dat0 V c).owesAt () t.castSucc
    ∗ (∃ d, owns (c : Thread nD τ) (stgs0 t).m1 fullShare ((dat0 V c).before 0 t d))
    ∗ (∃ d, owns (c : Thread nD τ) (stgs0 t).m2 fullShare ((dat0 V c).before 1 t d))
    ∗ (∃ d, owns (c : Thread nD τ) (stgs0 t).m3 fullShare ((dat0 V c).before 2 t d))
    ∗ (∃ d, owns (c : Thread nD τ) (stgs0 t).m4 fullShare ((dat0 V c).before 3 t d))
    ∗ (∃ d, owns (c : Thread nD τ) (stgs0 t).m5 fullShare ((dat0 V c).before 4 t d))
    ∗ (∃ d, owns (c : Thread nD τ) (stgs0 t).m6 fullShare ((dat0 V c).before 5 t d))
    ∗ (∃ d, owns (c : Thread nD τ) (stgs0 t).m7 fullShare ((dat0 V c).before 6 t d))
    ∗ (∃ d, owns (c : Thread nD τ) (stgs0 t).m8 fullShare ((dat0 V c).before 7 t d))
    ∗ (∃ d, owns (c : Thread nD τ) (stgs0 t).m9 fullShare ((dat0 V c).before 8 t d))
    ∗ (∃ d, owns (c : Thread nD τ) (stgs0 t).mo fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (stgs0 t).m1 fullShare (iblk0 V c 0 t)
    ∗ owns (c : Thread nD τ) (stgs0 t).m2 fullShare (iblk0 V c 1 t)
    ∗ owns (c : Thread nD τ) (stgs0 t).m3 fullShare (iblk0 V c 2 t)
    ∗ owns (c : Thread nD τ) (stgs0 t).m4 fullShare (iblk0 V c 3 t)
    ∗ owns (c : Thread nD τ) (stgs0 t).m5 fullShare (iblk0 V c 4 t)
    ∗ owns (c : Thread nD τ) (stgs0 t).m6 fullShare (iblk0 V c 5 t)
    ∗ owns (c : Thread nD τ) (stgs0 t).m7 fullShare (iblk0 V c 6 t)
    ∗ owns (c : Thread nD τ) (stgs0 t).m8 fullShare (iblk0 V c 7 t)
    ∗ owns (c : Thread nD τ) (stgs0 t).m9 fullShare (iblk0 V c 8 t)
    ∗ (dat0 V c).leavesExact 9 t)

set_option maxHeartbeats 4800000 in
/-- The body at any block-step: the closed forms of the two conditionals pick the control case, whose run takes the
    accumulator from what the block-step before left (anything at block-step 0) to this block-step's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = Phi0 V c (t.val + 1) t.isLt from rfl, Phi0_succ]
  have hN : t.val < 256 := lt_of_lt_of_eq t.isLt (show cfg0.N = 256 from N_0)
  by_cases h2 : t.val = 255
  · have hc2 : cond0_2 (grid0.coords t) := (hcond0_2 t).mpr h2
    have hc1 : ¬cond0_1 (grid0.coords t) := fun h => by have := (hcond0_1 t).mp h; omega
    have h1 : t.val ≠ 0 := by omega
    rw [leaves0_9 V c t hc2, Phi0_castSucc V c t, Phi0_pos V c _ _ h1, accAt0_next V c t h1]; unfold step0
    iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
    iapply (run0_C c (grid0.coords t) (stgs0 t) (blks0 V c t) (accAt0 V c (t.val - 1) (Nat.lt_of_le_of_lt (Nat.sub_le _ _) t.isLt)) hc1 hc2 Set.univ _)
    unfold Stg0.ins
    iframe Ha Hb Hc Hd He Hf Hgg Hh Hk HS
    isplitl [HO]; · iexists _; iexact HO
    iintro ⟨⟨Ha, Hb, Hc, Hd, He, Hf, Hgg, Hh, Hk⟩, HO, HS⟩
    iframe
  · have hc2 : ¬cond0_2 (grid0.coords t) := fun h => h2 ((hcond0_2 t).mp h)
    rw [Dat.leavesExact_idle (dat0 V c) 9 t (idleAt0_9 t hc2) (noFlush0_9 t hc2)]
    by_cases h1 : t.val = 0
    · have hc1 : cond0_1 (grid0.coords t) := (hcond0_1 t).mpr h1
      rw [Phi0_castSucc V c t, Phi0_zero V c _ _ h1, PhiA0_eq, accAt0_first V c t h1]; unfold step0
      iintro ⟨⟨⟨HS, Hr⟩, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run0_A c (grid0.coords t) (stgs0 t) (blks0 V c t) hc1 hc2 Set.univ _)
      unfold Stg0.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO
    · have hc1 : ¬cond0_1 (grid0.coords t) := fun h => h1 ((hcond0_1 t).mp h)
      rw [Phi0_castSucc V c t, Phi0_pos V c _ _ h1, accAt0_next V c t h1]; unfold step0
      iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run0_B c (grid0.coords t) (stgs0 t) (blks0 V c t) (accAt0 V c (t.val - 1) (Nat.lt_of_le_of_lt (Nat.sub_le _ _) t.isLt)) hc1 hc2 Set.univ _)
      unfold Stg0.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = Phi0 V c 0 (Nat.zero_le _) from rfl]
  exact Idealize.SL.BI.Entails.refl _

theorem hout0 (c : Dev nD) : (dat0 V c).Φ (Fin.last cfg0.N) ⊢ (Pipeline.ΦA spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨HS, Ho, Hg⟩
  isplitl [HS Ho]
  · isplitl [HS]
    · iexists _; iexact HS
    · iexact Ho
  · iexact Hg

theorem isIn0 : ∀ w : Fin cfg0.W, w ≠ 9 → (cfg0.win w).isOut = false := by decide

theorem arrAt0_in (c : Dev nD) (w : Fin cfg0.W) (hw : w ≠ 9) : (dat0 V c).arrAt w cfg0.N = V c (Pipeline.arrRef spec0 w) :=
  ((dat0 V c).arrAt_in w (isIn0 w hw) cfg0.N).trans (A_eq0 V c w)

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

abbrev tLast0 : Fin cfg0.N := ⟨255, by decide⟩

theorem last0_9 (t : Fin cfg0.N) (hf : (cfg0.win 9).flush t = true) : t = tLast0 := by
  have h := (flush0_9 t).mp hf
  have hN : t.val < 256 := lt_of_lt_of_eq t.isLt N_0
  exact Fin.ext (by show t.val = 255; omega)

theorem flushed0_9 (c : Dev nD) (t : Fin cfg0.N) (hf : (cfg0.win 9).flush t = true) :
    (dat0 V c).flushed 9 t = ((cfg0.win 9).blk t).view.read (Elt F) (accAt0 V c 255 (by decide)) := by
  have ht := last0_9 t hf
  subst ht
  funext j
  rw [View.read_apply]
  show accAt0 V c 255 tLast0.isLt ((cfg0.win 9).xinj (grid0.coords tLast0) j)
    = accAt0 V c 255 tLast0.isLt (((cfg0.win 9).blk tLast0).view.emb j)
  refine congrArg (accAt0 V c 255 tLast0.isLt) (funext fun a => Fin.ext ?_)
  obtain ⟨e0, e1⟩ := idx0_9 tLast0
  match a with
  | ⟨0, _⟩ =>
    show (j 0).val = win0_9.index tLast0 (0 : Fin 2) * 1024 + 1 * (j 0).val
    omega
  | ⟨1, _⟩ =>
    show (j 1).val = win0_9.index tLast0 (1 : Fin 2) * 64 + 1 * (j 1).val
    omega

theorem cover0_9 (i : S1024x64.Idx) :
    ∃ t : Fin cfg0.N, (cfg0.win 9).flush t = true ∧ i ∈ ((cfg0.win 9).blk t).view.set := by
  refine ⟨tLast0, (flush0_9 tLast0).mpr (by decide), ?_⟩
  show i ∈ ((View.whole main_v4).slice (win0_9.rect tLast0)).set
  rw [View.set_slice_whole, Rect.mem_set_unit]
  obtain ⟨e0, e1⟩ := idx0_9 tLast0
  intro a
  match a with
  | ⟨0, _⟩ =>
    show win0_9.index tLast0 (0 : Fin 2) * 1024 ≤ (i 0).val ∧ (i 0).val < win0_9.index tLast0 (0 : Fin 2) * 1024 + 1024
    have hi : (i 0).val < 1024 := (i 0).isLt
    omega
  | ⟨1, _⟩ =>
    show win0_9.index tLast0 (1 : Fin 2) * 64 ≤ (i 1).val ∧ (i 1).val < win0_9.index tLast0 (1 : Fin 2) * 64 + 64
    have hi : (i 1).val < 64 := (i 1).isLt
    omega

theorem arrAt0_out (c : Dev nD) : (dat0 V c).arrAt 9 cfg0.N = accAt0 V c 255 (by decide) :=
  (dat0 V c).arrAt_eq_of_cover 9 (accAt0 V c 255 (by decide)) (fun t hf => flushed0_9 V c t hf) cover0_9

end Cert.KernelIdeal.Hand

end
-- ==== Proof.KI.B1Run.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.LibWhole

variable {F : FTy → Type} [FloatOps F]

local notation "𝕄" => MT nD τ sig Unit (Elt F) ℕ (UR sig nD τ) ℕ

/-- The body zeroes the accumulator under this test of the block-step against 0. -/
abbrev cond1_1 (i : grid1.Coords) : Prop :=
  (Scalar.cmpi .ne (Scalar.extui (Scalar.cmpi .eq (BitVec.ofNat 32 (i 0).val) 0#32)) 0#32) = 1#1

theorem hcond1_1 : ∀ t : Fin cfg1.N, cond1_1 (grid1.coords t) ↔ t.val = 0 :=
  (by decide +kernel : ∀ t : Fin grid1.N, cond1_1 (grid1.coords t) ↔ t.val = 0)

/-- The body copies the accumulator out under this test of the block-step against 255. -/
abbrev cond1_2 (i : grid1.Coords) : Prop := k1_cond2 i = 1#1

theorem hcond1_2 : ∀ t : Fin cfg1.N, cond1_2 (grid1.coords t) ↔ t.val = 255 :=
  (by decide +kernel : ∀ t : Fin grid1.N, cond1_2 (grid1.coords t) ↔ t.val = 255)

theorem liveAt1_in : ∀ (w : Fin cfg1.W), w ≠ 9 → ∀ t : Fin cfg1.N, cfg1.idle w (grid1.coords t) = false := by decide +kernel
theorem idleAt1_9 : ∀ t : Fin cfg1.N, ¬cond1_2 (grid1.coords t) → cfg1.idle 9 (grid1.coords t) = true := by decide +kernel
theorem noFlush1_9 : ∀ t : Fin cfg1.N, ¬cond1_2 (grid1.coords t) → (cfg1.win 9).flush t = false := by decide +kernel
theorem liveAt1_9 : ∀ t : Fin cfg1.N, cond1_2 (grid1.coords t) → cfg1.idle 9 (grid1.coords t) = false := by decide +kernel

/-- The body's eleven memref arguments, each a whole buffer: nine inputs, the output, the accumulator. -/
structure Stg1 where
  m1 : Memref sig .tc .vmem S2048x2 .f32
  h1 : m1.IsWhole
  m2 : Memref sig .tc .vmem S2048x1 .i32
  h2 : m2.IsWhole
  m3 : Memref sig .tc .vmem S64x2 .f32
  h3 : m3.IsWhole
  m4 : Memref sig .tc .vmem S2x64 .f32
  h4 : m4.IsWhole
  m5 : Memref sig .tc .vmem S1x64 .f32
  h5 : m5.IsWhole
  m6 : Memref sig .tc .vmem S64x64 .f32
  h6 : m6.IsWhole
  m7 : Memref sig .tc .vmem S1x64 .f32
  h7 : m7.IsWhole
  m8 : Memref sig .tc .vmem S64x1 .f32
  h8 : m8.IsWhole
  m9 : Memref sig .tc .vmem S1x1 .f32
  h9 : m9.IsWhole
  mo : Memref sig .tc .vmem S1024x64 .f32
  ho : mo.IsWhole
  ms : Memref sig .tc .vmem S1024x64 .f32
  hs : ms.IsWhole

/-- The nine input blocks of one block-step. -/
structure Blk1 (F : FTy → Type) where
  xa : Vec F S2048x2 .f32
  xb : Vec F S2048x1 .i32
  xc : Vec F S64x2 .f32
  xd : Vec F S2x64 .f32
  xe : Vec F S1x64 .f32
  xf : Vec F S64x64 .f32
  xg : Vec F S1x64 .f32
  xh : Vec F S64x1 .f32
  xk : Vec F S1x1 .f32

/-- The body's call on those memrefs. -/
abbrev Stg1.call (b : Stg1) (i : grid1.Coords) := cc1__branch_kernel (F := F) i b.m1 b.h1 b.m2 b.h2 b.m3 b.h3 b.m4 b.h4 b.m5 b.h5 b.m6 b.h6 b.m7 b.h7 b.m8 b.h8 b.m9 b.h9 b.mo b.ho b.ms b.hs

/-- The inputs' buffers at their blocks. -/
abbrev Stg1.ins (b : Stg1) (c : Dev nD) (x : Blk1 F) : sProp 𝕄 :=
  iprop(owns (c : Thread nD τ) b.m1 fullShare x.xa
    ∗ owns (c : Thread nD τ) b.m2 fullShare x.xb
    ∗ owns (c : Thread nD τ) b.m3 fullShare x.xc
    ∗ owns (c : Thread nD τ) b.m4 fullShare x.xd
    ∗ owns (c : Thread nD τ) b.m5 fullShare x.xe
    ∗ owns (c : Thread nD τ) b.m6 fullShare x.xf
    ∗ owns (c : Thread nD τ) b.m7 fullShare x.xg
    ∗ owns (c : Thread nD τ) b.m8 fullShare x.xh
    ∗ owns (c : Thread nD τ) b.m9 fullShare x.xk)

/-- One block-step's update of the accumulator. -/
abbrev Blk1.upd (x : Blk1 F) (acc : Vec F S1024x64 .f32) : Vec F S1024x64 .f32 :=
  k1_pay1 (k1_pay3 x.xb) (k1_pay4 x.xa x.xc) (k1_pay5 x.xa x.xd x.xe) x.xf (constant S2048x64 .f32 0x00000000#32) x.xg x.xh x.xk acc

set_option maxHeartbeats 1000000 in
theorem run1_A (c : Dev nD) (i : grid1.Coords) (b : Stg1) (x : Blk1 F) (hc1 : cond1_1 i) (hc2 : ¬cond1_2 i)
    (E : Set ℕ) (K : PUnit → sProp 𝕄) :
    iprop(b.ins c x ∗ (∃ d, owns (c : Thread nD τ) b.ms fullShare d)
        ∗ (iprop(b.ins c x ∗ owns (c : Thread nD τ) b.ms fullShare (x.upd k1_pay2)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%ds, %fs, -, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    View.readCov_unit_zero (S := S1024x64) _ zero_off2]

set_option maxHeartbeats 1000000 in
theorem run1_B (c : Dev nD) (i : grid1.Coords) (b : Stg1) (x : Blk1 F) (xs : Vec F S1024x64 .f32) (hc1 : ¬cond1_1 i) (hc2 : ¬cond1_2 i)
    (E : Set ℕ) (K : PUnit → sProp 𝕄) :
    iprop(b.ins c x ∗ owns (c : Thread nD τ) b.ms fullShare xs
        ∗ (iprop(b.ins c x ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

set_option maxHeartbeats 1000000 in
theorem run1_C (c : Dev nD) (i : grid1.Coords) (b : Stg1) (x : Blk1 F) (xs : Vec F S1024x64 .f32) (hc1 : ¬cond1_1 i) (hc2 : cond1_2 i)
    (E : Set ℕ) (K : PUnit → sProp 𝕄) :
    iprop(b.ins c x ∗ (∃ d, owns (c : Thread nD τ) b.mo fullShare d) ∗ owns (c : Thread nD τ) b.ms fullShare xs
        ∗ (iprop(b.ins c x ∗ owns (c : Thread nD τ) b.mo fullShare (x.upd xs) ∗ owns (c : Thread nD τ) b.ms fullShare (x.upd xs)) -∗ K ⟨⟩))
      ⊢ wp frame (wpE (defs₀ (F := F)) Variants.none c none) E (b.call i) K := by
  obtain ⟨m1, hm1, m2, hm2, m3, hm3, m4, hm4, m5, hm5, m6, hm6, m7, hm7, m8, hm8, m9, hm9, mo, hmo, ms, hms⟩ := b
  obtain ⟨xa, xb, xc, xd, xe, xf, xg, xh, xk⟩ := x
  simp only [Stg1.call, Stg1.ins, Blk1.upd]
  simp only [cc1__branch_kernel_eq_skeleton]; unfold cc1__branch_kernel_skel
  unfold owns
  iintro ⟨⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩, ⟨%fh, %hfh, Hh⟩, ⟨%fk, %hfk, Hk⟩⟩, ⟨%dO, %fo, -, HO⟩, ⟨%fs, %hfs, HS⟩, Hw⟩
  obtain rfl := hm1.eq_unread hfa; obtain rfl := hm2.eq_unread hfb; obtain rfl := hm3.eq_unread hfc
  obtain rfl := hm4.eq_unread hfd; obtain rfl := hm5.eq_unread hfe; obtain rfl := hm6.eq_unread hff
  obtain rfl := hm7.eq_unread hfg; obtain rfl := hm8.eq_unread hfh; obtain rfl := hm9.eq_unread hfk
  obtain rfl := hms.eq_unread hfs
  sl_exec (disch := first | exact hc1 | exact hc2)
  sl_step
  iapply Hw
  isplitl [Ha Hb Hc Hd He Hf Hg Hh Hk]
  · isplitl [Ha]; · iapply unread_intro hm1; iexact Ha
    isplitl [Hb]; · iapply unread_intro hm2; iexact Hb
    isplitl [Hc]; · iapply unread_intro hm3; iexact Hc
    isplitl [Hd]; · iapply unread_intro hm4; iexact Hd
    isplitl [He]; · iapply unread_intro hm5; iexact He
    isplitl [Hf]; · iapply unread_intro hm6; iexact Hf
    isplitl [Hg]; · iapply unread_intro hm7; iexact Hg
    isplitl [Hh]; · iapply unread_intro hm8; iexact Hh
    iapply unread_intro hm9; iexact Hk
  isplitl [HO]
  · iexists _; isplitr; swap; · iexact HO
    ipureintro
    try sl_unfold_words
    rw [read_writes_top _ _ zero_off2, View.readCov_unit_zero (S := S1024x64) _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
      load_whole ms hms xs zero_off2]
  iexists _; isplitr; swap; · iexact HS
  ipureintro
  try sl_unfold_words
  rw [read_writes_top _ _ zero_off2, load_whole m1 hm1 xa zero_off2, load_whole m2 hm2 xb zero_off2, load_whole m3 hm3 xc zero_off2,
    load_whole m4 hm4 xd zero_off2, load_whole m5 hm5 xe zero_off2, load_whole m6 hm6 xf zero_off2,
    load_whole m7 hm7 xg zero_off2, load_whole m8 hm8 xh zero_off2, load_whole m9 hm9 xk zero_off2,
    load_whole ms hms xs zero_off2]

end Cert.KernelIdeal.Hand

end
-- ==== Proof.KI.B1.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.KI.B1Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.LibWhole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def step1 (c : Dev nD) (t : Fin cfg1.N) (acc : Vec F S1024x64 .f32) : Vec F S1024x64 .f32 :=
  k1_pay1 (k1_pay3 (iblk1 V c 1 t)) (k1_pay4 (iblk1 V c 0 t) (iblk1 V c 2 t)) (k1_pay5 (iblk1 V c 0 t) (iblk1 V c 3 t) (iblk1 V c 4 t))
    (iblk1 V c 5 t) (constant S2048x64 .f32 0x00000000#32) (iblk1 V c 6 t) (iblk1 V c 7 t) (iblk1 V c 8 t) acc

def accAt1 (c : Dev nD) : (n : ℕ) → n < cfg1.N → Vec F S1024x64 .f32
  | 0, h => step1 V c ⟨0, h⟩ k1_pay2
  | n + 1, h => step1 V c ⟨n + 1, h⟩ (accAt1 c n (Nat.lt_of_succ_lt h))

theorem accAt1_zero (c : Dev nD) (h : 0 < cfg1.N) : accAt1 V c 0 h = step1 V c ⟨0, h⟩ k1_pay2 := rfl
theorem accAt1_succ (c : Dev nD) (n : ℕ) (h : n + 1 < cfg1.N) :
    accAt1 V c (n + 1) h = step1 V c ⟨n + 1, h⟩ (accAt1 V c n (Nat.lt_of_succ_lt h)) := rfl

abbrev scr1 : Memref sig .tc .vmem S1024x64 .f32 := Memref.whole cc1_scratch0

def Phi1 (c : Dev nD) : (n : ℕ) → n ≤ cfg1.N → sProp 𝕄
  | 0, _ => Pipeline.ΦA spec1 c
  | n + 1, hn => iprop(owns (c : Thread nD τ) scr1 fullShare (accAt1 V c n hn)
      ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => accAt1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiA1_eq (c : Dev nD) :
    (Pipeline.ΦA spec1 c : sProp 𝕄)
      = iprop(iprop(iprop(∃ d, owns (c : Thread nD τ) scr1 fullShare d) ∗ Pipeline.scopedRestBut spec1 c [cc1_scratch0]) ∗ (∃ r, prngReg c r)) := by
  unfold Pipeline.ΦA; rw [scopedRest1_split]; simp only [scr1, owns_whole]; try rfl

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scr1 fullShare (accAt1 V c n hn)
      ∗ Pipeline.scopedRestBut spec1 c [cc1_scratch0] ∗ (∃ r, prngReg c r)) := rfl

theorem Phi1_pos (c : Dev nD) (n : ℕ) (h : n ≤ cfg1.N) (hz : n ≠ 0) :
    Phi1 V c n h = iprop(owns (c : Thread nD τ) scr1 fullShare (accAt1 V c (n - 1) (by omega))
      ∗ Pipeline.scopedRestBut spec1 c [cc1_scratch0] ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

theorem accAt1_first (c : Dev nD) (t : Fin cfg1.N) (h : t.val = 0) : accAt1 V c t.val t.isLt = step1 V c t k1_pay2 := by
  obtain ⟨n, hn⟩ := t
  cases n with
  | zero => rfl
  | succ n => exact absurd h (Nat.succ_ne_zero _)

theorem accAt1_next (c : Dev nD) (t : Fin cfg1.N) (h : t.val ≠ 0) :
    accAt1 V c t.val t.isLt = step1 V c t (accAt1 V c (t.val - 1) (Nat.lt_of_le_of_lt (Nat.sub_le _ _) t.isLt)) := by
  obtain ⟨n, hn⟩ := t
  cases n with
  | zero => exact absurd rfl h
  | succ n => rfl

/-- The body's memref arguments at block-step `t`. -/
abbrev stgs1 (t : Fin cfg1.N) : Stg1 :=
  ⟨win1_0.stage (cfg1.slots t 0), hstage1_0 ((cfg1.slots t 0).cast nbuf1_0),
    win1_1.stage (cfg1.slots t 1), hstage1_1 ((cfg1.slots t 1).cast nbuf1_1),
    win1_2.stage (cfg1.slots t 2), hstage1_2 ((cfg1.slots t 2).cast nbuf1_2),
    win1_3.stage (cfg1.slots t 3), hstage1_3 ((cfg1.slots t 3).cast nbuf1_3),
    win1_4.stage (cfg1.slots t 4), hstage1_4 ((cfg1.slots t 4).cast nbuf1_4),
    win1_5.stage (cfg1.slots t 5), hstage1_5 ((cfg1.slots t 5).cast nbuf1_5),
    win1_6.stage (cfg1.slots t 6), hstage1_6 ((cfg1.slots t 6).cast nbuf1_6),
    win1_7.stage (cfg1.slots t 7), hstage1_7 ((cfg1.slots t 7).cast nbuf1_7),
    win1_8.stage (cfg1.slots t 8), hstage1_8 ((cfg1.slots t 8).cast nbuf1_8),
    win1_9.stage (cfg1.slots t 9), hstage1_9 ((cfg1.slots t 9).cast nbuf1_9),
    scr1, Memref.isWhole_whole _⟩

/-- The input blocks of block-step `t`. -/
abbrev blks1 (c : Dev nD) (t : Fin cfg1.N) : Blk1 F :=
  ⟨iblk1 V c 0 t, iblk1 V c 1 t, iblk1 V c 2 t, iblk1 V c 3 t, iblk1 V c 4 t, iblk1 V c 5 t, iblk1 V c 6 t, iblk1 V c 7 t, iblk1 V c 8 t⟩

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d

theorem leaves1_9 (c : Dev nD) (t : Fin cfg1.N) (hc2 : cond1_2 (grid1.coords t)) :
    (dat1 V c).leavesExact 9 t = owns (c : Thread nD τ) (stgs1 t).mo fullShare (accAt1 V c t.val t.isLt) := by
  unfold Dat.leavesExact; rw [liveAt1_9 t hc2] <;> rfl

def bodyPre1 (c : Dev nD) (t : Fin cfg1.N) : sProp 𝕄 :=
  iprop((dat1 V c).Φ t.castSucc ∗ (dat1 V c).owesAt () t.castSucc
    ∗ (∃ d, owns (c : Thread nD τ) (stgs1 t).m1 fullShare ((dat1 V c).before 0 t d))
    ∗ (∃ d, owns (c : Thread nD τ) (stgs1 t).m2 fullShare ((dat1 V c).before 1 t d))
    ∗ (∃ d, owns (c : Thread nD τ) (stgs1 t).m3 fullShare ((dat1 V c).before 2 t d))
    ∗ (∃ d, owns (c : Thread nD τ) (stgs1 t).m4 fullShare ((dat1 V c).before 3 t d))
    ∗ (∃ d, owns (c : Thread nD τ) (stgs1 t).m5 fullShare ((dat1 V c).before 4 t d))
    ∗ (∃ d, owns (c : Thread nD τ) (stgs1 t).m6 fullShare ((dat1 V c).before 5 t d))
    ∗ (∃ d, owns (c : Thread nD τ) (stgs1 t).m7 fullShare ((dat1 V c).before 6 t d))
    ∗ (∃ d, owns (c : Thread nD τ) (stgs1 t).m8 fullShare ((dat1 V c).before 7 t d))
    ∗ (∃ d, owns (c : Thread nD τ) (stgs1 t).m9 fullShare ((dat1 V c).before 8 t d))
    ∗ (∃ d, owns (c : Thread nD τ) (stgs1 t).mo fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (stgs1 t).m1 fullShare (iblk1 V c 0 t)
    ∗ owns (c : Thread nD τ) (stgs1 t).m2 fullShare (iblk1 V c 1 t)
    ∗ owns (c : Thread nD τ) (stgs1 t).m3 fullShare (iblk1 V c 2 t)
    ∗ owns (c : Thread nD τ) (stgs1 t).m4 fullShare (iblk1 V c 3 t)
    ∗ owns (c : Thread nD τ) (stgs1 t).m5 fullShare (iblk1 V c 4 t)
    ∗ owns (c : Thread nD τ) (stgs1 t).m6 fullShare (iblk1 V c 5 t)
    ∗ owns (c : Thread nD τ) (stgs1 t).m7 fullShare (iblk1 V c 6 t)
    ∗ owns (c : Thread nD τ) (stgs1 t).m8 fullShare (iblk1 V c 7 t)
    ∗ owns (c : Thread nD τ) (stgs1 t).m9 fullShare (iblk1 V c 8 t)
    ∗ (dat1 V c).leavesExact 9 t)

set_option maxHeartbeats 4800000 in
/-- The body at any block-step: the closed forms of the two conditionals pick the control case, whose run takes the
    accumulator from what the block-step before left (anything at block-step 0) to this block-step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = Phi1 V c (t.val + 1) t.isLt from rfl, Phi1_succ]
  have hN : t.val < 256 := lt_of_lt_of_eq t.isLt (show cfg1.N = 256 from N_1)
  by_cases h2 : t.val = 255
  · have hc2 : cond1_2 (grid1.coords t) := (hcond1_2 t).mpr h2
    have hc1 : ¬cond1_1 (grid1.coords t) := fun h => by have := (hcond1_1 t).mp h; omega
    have h1 : t.val ≠ 0 := by omega
    rw [leaves1_9 V c t hc2, Phi1_castSucc V c t, Phi1_pos V c _ _ h1, accAt1_next V c t h1]; unfold step1
    iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
    iapply (run1_C c (grid1.coords t) (stgs1 t) (blks1 V c t) (accAt1 V c (t.val - 1) (Nat.lt_of_le_of_lt (Nat.sub_le _ _) t.isLt)) hc1 hc2 Set.univ _)
    unfold Stg1.ins
    iframe Ha Hb Hc Hd He Hf Hgg Hh Hk HS
    isplitl [HO]; · iexists _; iexact HO
    iintro ⟨⟨Ha, Hb, Hc, Hd, He, Hf, Hgg, Hh, Hk⟩, HO, HS⟩
    iframe
  · have hc2 : ¬cond1_2 (grid1.coords t) := fun h => h2 ((hcond1_2 t).mp h)
    rw [Dat.leavesExact_idle (dat1 V c) 9 t (idleAt1_9 t hc2) (noFlush1_9 t hc2)]
    by_cases h1 : t.val = 0
    · have hc1 : cond1_1 (grid1.coords t) := (hcond1_1 t).mpr h1
      rw [Phi1_castSucc V c t, Phi1_zero V c _ _ h1, PhiA1_eq, accAt1_first V c t h1]; unfold step1
      iintro ⟨⟨⟨HS, Hr⟩, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run1_A c (grid1.coords t) (stgs1 t) (blks1 V c t) hc1 hc2 Set.univ _)
      unfold Stg1.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO
    · have hc1 : ¬cond1_1 (grid1.coords t) := fun h => h1 ((hcond1_1 t).mp h)
      rw [Phi1_castSucc V c t, Phi1_pos V c _ _ h1, accAt1_next V c t h1]; unfold step1
      iintro ⟨⟨HS, Hr, Hg⟩, Ho, ⟨%d0, Ha⟩, ⟨%d1, Hb⟩, ⟨%d2, Hc⟩, ⟨%d3, Hd⟩, ⟨%d4, He⟩, ⟨%d5, Hf⟩, ⟨%d6, Hgg⟩, ⟨%d7, Hh⟩, ⟨%d8, Hk⟩, ⟨%dO, HO⟩⟩
      iapply (run1_B c (grid1.coords t) (stgs1 t) (blks1 V c t) (accAt1 V c (t.val - 1) (Nat.lt_of_le_of_lt (Nat.sub_le _ _) t.isLt)) hc1 hc2 Set.univ _)
      unfold Stg1.ins
      iframe Ha Hb Hc Hd He Hf Hgg Hh Hk HS
      iintro ⟨⟨Ha, Hb, Hc, Hd, He, Hf, Hgg, Hh, Hk⟩, HS⟩
      iframe Ha Hb Hc Hd He Hf Hgg Hh Hk HS Hr Hg Ho
      iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Phi1 V c 0 (Nat.zero_le _) from rfl]
  exact Idealize.SL.BI.Entails.refl _

theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨HS, Ho, Hg⟩
  isplitl [HS Ho]
  · isplitl [HS]
    · iexists _; iexact HS
    · iexact Ho
  · iexact Hg

theorem isIn1 : ∀ w : Fin cfg1.W, w ≠ 9 → (cfg1.win w).isOut = false := by decide

theorem arrAt1_in (c : Dev nD) (w : Fin cfg1.W) (hw : w ≠ 9) : (dat1 V c).arrAt w cfg1.N = V c (Pipeline.arrRef spec1 w) :=
  ((dat1 V c).arrAt_in w (isIn1 w hw) cfg1.N).trans (A_eq1 V c w)

theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)

abbrev tLast1 : Fin cfg1.N := ⟨255, by decide⟩

theorem last1_9 (t : Fin cfg1.N) (hf : (cfg1.win 9).flush t = true) : t = tLast1 := by
  have h := (flush1_9 t).mp hf
  have hN : t.val < 256 := lt_of_lt_of_eq t.isLt N_1
  exact Fin.ext (by show t.val = 255; omega)

theorem flushed1_9 (c : Dev nD) (t : Fin cfg1.N) (hf : (cfg1.win 9).flush t = true) :
    (dat1 V c).flushed 9 t = ((cfg1.win 9).blk t).view.read (Elt F) (accAt1 V c 255 (by decide)) := by
  have ht := last1_9 t hf
  subst ht
  funext j
  rw [View.read_apply]
  show accAt1 V c 255 tLast1.isLt ((cfg1.win 9).xinj (grid1.coords tLast1) j)
    = accAt1 V c 255 tLast1.isLt (((cfg1.win 9).blk tLast1).view.emb j)
  refine congrArg (accAt1 V c 255 tLast1.isLt) (funext fun a => Fin.ext ?_)
  obtain ⟨e0, e1⟩ := idx1_9 tLast1
  match a with
  | ⟨0, _⟩ =>
    show (j 0).val = win1_9.index tLast1 (0 : Fin 2) * 1024 + 1 * (j 0).val
    omega
  | ⟨1, _⟩ =>
    show (j 1).val = win1_9.index tLast1 (1 : Fin 2) * 64 + 1 * (j 1).val
    omega

theorem cover1_9 (i : S1024x64.Idx) :
    ∃ t : Fin cfg1.N, (cfg1.win 9).flush t = true ∧ i ∈ ((cfg1.win 9).blk t).view.set := by
  refine ⟨tLast1, (flush1_9 tLast1).mpr (by decide), ?_⟩
  show i ∈ ((View.whole main_v9).slice (win1_9.rect tLast1)).set
  rw [View.set_slice_whole, Rect.mem_set_unit]
  obtain ⟨e0, e1⟩ := idx1_9 tLast1
  intro a
  match a with
  | ⟨0, _⟩ =>
    show win1_9.index tLast1 (0 : Fin 2) * 1024 ≤ (i 0).val ∧ (i 0).val < win1_9.index tLast1 (0 : Fin 2) * 1024 + 1024
    have hi : (i 0).val < 1024 := (i 0).isLt
    omega
  | ⟨1, _⟩ =>
    show win1_9.index tLast1 (1 : Fin 2) * 64 ≤ (i 1).val ∧ (i 1).val < win1_9.index tLast1 (1 : Fin 2) * 64 + 64
    have hi : (i 1).val < 64 := (i 1).isLt
    omega

theorem arrAt1_out (c : Dev nD) : (dat1 V c).arrAt 9 cfg1.N = accAt1 V c 255 (by decide) :=
  (dat1 V c).arrAt_eq_of_cover 9 (accAt1 V c 255 (by decide)) (fun t hf => flushed1_9 V c t hf) cover1_9

end Cert.KernelIdeal.Hand

end
-- ==== Proof.KI.M2Run.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.LibWhole

variable {F : FTy → Type} [FloatOps F]

local notation "𝕄" => MT nD τ sig Unit (Elt F) ℕ (UR sig nD τ) ℕ

abbrev box_1024x64 : Rect S1024x64 := Rect.unit (s := S1024x64) ![0, 0] S1024x64.size inb_S1024x64_S1024x64_0_0
abbrev box_1024x16 : Rect S1024x16 := Rect.unit (s := S1024x16) ![0, 0] S1024x16.size inb_S1024x16_S1024x16_0_0
abbrev box_64x128 : Rect S64x128 := Rect.unit (s := S64x128) ![0, 0] S64x128.size inb_S64x128_S64x128_0_0
abbrev box_16x128 : Rect S16x128 := Rect.unit (s := S16x128) ![0, 0] S16x128.size inb_S16x128_S16x128_0_0
abbrev box_1x128 : Rect S1x128 := Rect.unit (s := S1x128) ![0, 0] S1x128.size inb_S1x128_S1x128_0_0
abbrev box_128x128 : Rect S128x128 := Rect.unit (s := S128x128) ![0, 0] S128x128.size inb_S128x128_S128x128_0_0
abbrev box_128x10 : Rect S128x10 := Rect.unit (s := S128x10) ![0, 0] S128x10.size inb_S128x10_S128x10_0_0
abbrev box_1x10 : Rect S1x10 := Rect.unit (s := S1x10) ![0, 0] S1x10.size inb_S1x10_S1x10_0_0
abbrev box_1024x10 : Rect S1024x10 := Rect.unit (s := S1024x10) ![0, 0] S1024x10.size inb_S1024x10_S1024x10_0_0

/-- What the classifier's one store leaves in the output block: the layers' result of the eleven input blocks, as a canonical piece list. -/
def stored2 (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) : Vec F S1024x10 .f32 :=
  View.canon [⟨box_1024x10, k2_pay1 (k2_pay2 (View.ld x0 box_1024x64) (View.ld x3 box_64x128) (View.ld x1 box_1024x64) (View.ld x4 box_64x128) (View.ld x2 box_1024x16) (View.ld x5 box_16x128) (View.ld x6 box_1x128) (View.ld x7 box_128x128) (View.ld x8 box_1x128) (View.ld x9 box_128x10)) (View.ld x10 box_1x10)⟩]

theorem cover2 (p0 : Vec F S1024x10 .f32) (y : S1024x10.Idx) :
    ∃ pc ∈ ([⟨box_1024x10, p0⟩] : List (View.Piece (Elt F) S1024x10 .f32)), y ∈ pc.1.set :=
  ⟨_, List.mem_singleton_self _, View.mem_set_unit_zero (S := S1024x10) zero_off2 inb_S1024x10_S1024x10_0_0 y⟩

theorem stored2_eq (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) :
    stored2 x0 x1 x2 x3 x4 x5 x6 x7 x8 x9 x10 = k2_pay1 (k2_pay2 x0 x3 x1 x4 x2 x5 x6 x7 x8 x9) x10 := by
  unfold stored2
  rw [View.canon_unit_zero zero_off2]
  rw [View.ld_unit_zero (S := S1024x64) zero_off2 _ x0,
    View.ld_unit_zero (S := S1024x64) zero_off2 _ x1,
    View.ld_unit_zero (S := S1024x16) zero_off2 _ x2,
    View.ld_unit_zero (S := S64x128) zero_off2 _ x3,
    View.ld_unit_zero (S := S64x128) zero_off2 _ x4,
    View.ld_unit_zero (S := S16x128) zero_off2 _ x5,
    View.ld_unit_zero (S := S1x128) zero_off2 _ x6,
    View.ld_unit_zero (S := S128x128) zero_off2 _ x7,
    View.ld_unit_zero (S := S1x128) zero_off2 _ x8,
    View.ld_unit_zero (S := S128x10) zero_off2 _ x9,
    View.ld_unit_zero (S := S1x10) zero_off2 _ x10]

set_option maxHeartbeats 1000000 in
/-- The classifier's body on whole memrefs: the inputs come back as they were, the output block holds the layers' result. -/
theorem sound_kernel2 (c : Dev nD) (E : Set ℕ) (i : grid2.Coords) (arg1 : Memref sig .tc .vmem S1024x64 .f32) (harg1 : arg1.IsWhole) (arg2 : Memref sig .tc .vmem S1024x64 .f32) (harg2 : arg2.IsWhole) (arg3 : Memref sig .tc .vmem S1024x16 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x10 .f32) (harg10 : arg10.IsWhole) (arg11 : Memref sig .tc .vmem S1x10 .f32) (harg11 : arg11.IsWhole) (arg12 : Memref sig .tc .vmem S1024x10 .f32) (harg12 : arg12.IsWhole)
    (x0 : Vec F S1024x64 .f32) (x1 : Vec F S1024x64 .f32) (x2 : Vec F S1024x16 .f32) (x3 : Vec F S64x128 .f32) (x4 : Vec F S64x128 .f32) (x5 : Vec F S16x128 .f32) (x6 : Vec F S1x128 .f32) (x7 : Vec F S128x128 .f32) (x8 : Vec F S1x128 .f32) (x9 : Vec F S128x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (k2_pay1 (k2_pay2 x0 x3 x1 x4 x2 x5 x6 x7 x8 x9) x10)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11 arg12 harg12) K := by
  rw [← stored2_eq x0 x1 x2 x3 x4 x5 x6 x7 x8 x9 x10]
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover2 _)

end Cert.KernelIdeal.Hand

end
-- ==== Proof.KI.M2.lean ====
import proofs.«421210_j62689342652499_1_alg».proof.Proof.Gen.KernelIdeal.Launch
import proofs.«421210_j62689342652499_1_alg».proof.Proof.Gen.KernelIdeal.Skeleton
import proofs.«421210_j62689342652499_1_alg».proof.Proof.Gen.KernelIdeal.Points
import proofs.«421210_j62689342652499_1_alg».proof.Proof.KI.M2Run
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2 (x0 : Vec F S1024x64 .f32) (x1 : Vec F S1024x64 .f32) (x2 : Vec F S1024x16 .f32) (x3 : Vec F S64x128 .f32)
    (x4 : Vec F S64x128 .f32) (x5 : Vec F S16x128 .f32) (x6 : Vec F S1x128 .f32) (x7 : Vec F S128x128 .f32)
    (x8 : Vec F S1x128 .f32) (x9 : Vec F S128x10 .f32) (x10 : Vec F S1x10 .f32) : Vec F S1024x10 .f32 :=
  k2_pay1 (k2_pay2 x0 x3 x1 x4 x2 x5 x6 x7 x8 x9) x10

def res2 (c : Dev nD) (t : Fin cfg2.N) : Vec F S1024x10 .f32 :=
  out2 (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => res2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_11 (c : Dev nD) (t : Fin cfg2.N) : (dat2 V c).after 11 t = res2 V c t := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
theorem before2_6 (c : Dev nD) (t : Fin cfg2.N) (d) : (dat2 V c).before 6 t d = iblk2 V c 6 t :=
  (dat2 V c).before_in_eq_fetched 6 rfl (fun _ => rfl) (fun _ _ _ => rfl) (fun _ => rfl) t d
theorem before2_7 (c : Dev nD) (t : Fin cfg2.N) (d) : (dat2 V c).before 7 t d = iblk2 V c 7 t :=
  (dat2 V c).before_in_eq_fetched 7 rfl (fun _ => rfl) (fun _ _ _ => rfl) (fun _ => rfl) t d
theorem before2_8 (c : Dev nD) (t : Fin cfg2.N) (d) : (dat2 V c).before 8 t d = iblk2 V c 8 t :=
  (dat2 V c).before_in_eq_fetched 8 rfl (fun _ => rfl) (fun _ _ _ => rfl) (fun _ => rfl) t d
theorem before2_9 (c : Dev nD) (t : Fin cfg2.N) (d) : (dat2 V c).before 9 t d = iblk2 V c 9 t :=
  (dat2 V c).before_in_eq_fetched 9 rfl (fun _ => rfl) (fun _ _ _ => rfl) (fun _ => rfl) t d
theorem before2_10 (c : Dev nD) (t : Fin cfg2.N) (d) : (dat2 V c).before 10 t d = iblk2 V c 10 t :=
  (dat2 V c).before_in_eq_fetched 10 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare (iblk2 V c 5 t)
    ∗ owns (c : Thread nD τ) (st2_6 t) fullShare (iblk2 V c 6 t)
    ∗ owns (c : Thread nD τ) (st2_7 t) fullShare (iblk2 V c 7 t)
    ∗ owns (c : Thread nD τ) (st2_8 t) fullShare (iblk2 V c 8 t)
    ∗ owns (c : Thread nD τ) (st2_9 t) fullShare (iblk2 V c 9 t)
    ∗ owns (c : Thread nD τ) (st2_10 t) fullShare (iblk2 V c 10 t)
    ∗ owns (c : Thread nD τ) (st2_11 t) fullShare (res2 V c t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl]
  unfold res2 out2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  iframe H0 H1 H2 H3 H4 H5 H6 H7 H8 H9 H10
  isplitl [H11]; · iexists _; iexact H11
  iintro ⟨H0, H1, H2, H3, H4, H5, H6, H7, H8, H9, H10, H11⟩
  iframe

theorem body_obligation2 (c : Dev nD) : BodyObligation (dat2 (F := F) V c) (defs₀ (F := F)) Variants.none () Set.univ := fun t => by
  rw [bigSep_W2, bigSep_W2]
  exact sound_body2 V c t

theorem isIn2 : ∀ w : Fin 12, w ≠ 11 → (win2 w).isOut = false := by decide

theorem arrAt2_in (c : Dev nD) (w : Fin cfg2.W) (hw : w ≠ 11) : (dat2 V c).arrAt w cfg2.N = V c (Pipeline.arrRef spec2 w) :=
  ((dat2 V c).arrAt_in w (isIn2 w hw) cfg2.N).trans (A_eq2 V c w)

theorem index2_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

theorem flushed2_eq (c : Dev nD) (t : Fin cfg2.N) :
    (dat2 V c).flushed 11 t = ((cfg2.win 11).blk t).view.read (Elt F) (res2 V c t2_0) := by
  rw [fin_N2 t]
  show (cfg2.win 11).cut (grid2.coords t2_0) ((dat2 V c).after 11 t2_0) = _
  rw [after2_11]
  obtain ⟨e0, e1⟩ := index2_11 t2_0
  funext j
  show res2 V c t2_0 _ = res2 V c t2_0 (((cfg2.win 11).blk t2_0).view.emb j)
  refine congrArg _ ?_
  funext a; apply Fin.ext
  match a with
  | ⟨0, _⟩ => show (j 0).val = win2_11.index t2_0 (0 : Fin 2) * 1024 + 1 * (j 0).val; omega
  | ⟨1, _⟩ => show (j 1).val = win2_11.index t2_0 (1 : Fin 2) * 10 + 1 * (j 1).val; omega

theorem cover2_11 (i : S1024x10.Idx) :
    ∃ t : Fin cfg2.N, (cfg2.win 11).flush t = true ∧ i ∈ ((cfg2.win 11).blk t).view.set := by
  refine ⟨t2_0, flush2_11 t2_0, ?_⟩
  show i ∈ ((View.whole main_v16).slice (win2_11.rect t2_0)).set
  rw [View.set_slice_whole, Rect.mem_set_unit]
  obtain ⟨e0, e1⟩ := index2_11 t2_0
  have h0 : (i 0).val < 1024 := (i 0).isLt
  have h1 : (i 1).val < 10 := (i 1).isLt
  intro a
  match a with
  | ⟨0, _⟩ => show win2_11.index t2_0 (0 : Fin 2) * 1024 ≤ (i 0).val ∧ (i 0).val < win2_11.index t2_0 (0 : Fin 2) * 1024 + 1024; omega
  | ⟨1, _⟩ => show win2_11.index t2_0 (1 : Fin 2) * 10 ≤ (i 1).val ∧ (i 1).val < win2_11.index t2_0 (1 : Fin 2) * 10 + 10; omega

theorem arrAt2_out (c : Dev nD) : (dat2 V c).arrAt 11 cfg2.N = res2 V c t2_0 :=
  (dat2 V c).arrAt_eq_of_cover 11 (res2 V c t2_0) (fun t _ => flushed2_eq V c t) cover2_11

end Cert.KernelIdeal.Hand

end
-- ==== Proof.KI.Launch.lean ====
import proofs.«421210_j62689342652499_1_alg».proof.Proof.KI.B0
import proofs.«421210_j62689342652499_1_alg».proof.Proof.KI.B1
import proofs.«421210_j62689342652499_1_alg».proof.Proof.KI.M2
import proofs.«421210_j62689342652499_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev entry0 : (c : Dev nD) → (b : Ref sig .tc) → Buf (Elt F) ((c : Thread nD τ).loc b) := fun c b => Gen.V1 m c b

def outsA (m : (ℓ : Loc nD τ sig) → Buf (Elt F) ℓ) : Gen.Outs (F := F) := fun _ r c =>
  Function.update (Gen.V1 m c) main_v4 ((dat0 (entry0 m) c).arrAt 9 cfg0.N) r

def outsB (m : (ℓ : Loc nD τ sig) → Buf (Elt F) ℓ) : Gen.Outs (F := F) := fun J r c =>
  match J with
  | 2 => outsA m 2 r c
  | _ => Function.update (Gen.V3 m (outsA m) c) main_v9 ((dat1 (fun c b => Gen.V3 m (outsA m) c b) c).arrAt 9 cfg1.N) r

def outs (m : (ℓ : Loc nD τ sig) → Buf (Elt F) ℓ) : Gen.Outs (F := F) := fun J r c =>
  match J with
  | 2 => outsA m 2 r c
  | 4 => outsB m 4 r c
  | _ => Function.update (Gen.V5 m (outsB m) c) main_v16 ((dat2 (fun c b => Gen.V5 m (outsB m) c b) c).arrAt 11 cfg2.N) r

abbrev entry1 : (c : Dev nD) → (b : Ref sig .tc) → Buf (Elt F) ((c : Thread nD τ).loc b) := fun c b => Gen.V3 m (outs m) c b
abbrev entry2 : (c : Dev nD) → (b : Ref sig .tc) → Buf (Elt F) ((c : Thread nD τ).loc b) := fun c b => Gen.V5 m (outs m) c b

theorem entry1_eq : entry1 m = fun c (b : Ref sig .tc) => Gen.V3 m (outsA m) c b := rfl
theorem entry2_eq : entry2 m = fun c (b : Ref sig .tc) => Gen.V5 m (outsB m) c b := rfl

theorem outs_main_v4 (c : Dev nD) : outs m 2 main_v4 c = (dat0 (entry0 m) c).arrAt 9 cfg0.N := by
  show Function.update (Gen.V1 m c) main_v4 ((dat0 (entry0 m) c).arrAt 9 cfg0.N) main_v4 = _
  exact Function.update_self ..
theorem outs_main_v9 (c : Dev nD) : outs m 4 main_v9 c = (dat1 (entry1 m) c).arrAt 9 cfg1.N := by
  show Function.update (Gen.V3 m (outsA m) c) main_v9 ((dat1 (fun c b => Gen.V3 m (outsA m) c b) c).arrAt 9 cfg1.N) main_v9 = _
  exact Function.update_self ..
theorem outs_main_v16 (c : Dev nD) : outs m 6 main_v16 c = (dat2 (entry2 m) c).arrAt 11 cfg2.N := by
  show Function.update (Gen.V5 m (outsB m) c) main_v16 ((dat2 (fun c b => Gen.V5 m (outsB m) c b) c).arrAt 11 cfg2.N) main_v16 = _
  exact Function.update_self ..

theorem V5_main_v4 (c : Dev nD) : Gen.V5 m (outs m) c main_v4 = accAt0 (entry0 m) c 255 (by decide) := by
  rw [Gen.V5_of m (outs m) c main_v4 (by decide), Gen.V4_of m (outs m) c main_v4 (by decide),
    Gen.V3_of m (outs m) c main_v4 (by decide)]
  show Function.update (Gen.V1 m c) main_v4 (outs m 2 main_v4 c) main_v4 = _
  rw [Function.update_self, outs_main_v4, arrAt0_out]

theorem V5_main_v9 (c : Dev nD) : Gen.V5 m (outs m) c main_v9 = accAt1 (entry1 m) c 255 (by decide) := by
  rw [Gen.V5_of m (outs m) c main_v9 (by decide)]
  show Function.update (Gen.V3 m (outs m) c) main_v9 (outs m 4 main_v9 c) main_v9 = _
  rw [Function.update_self, outs_main_v9, arrAt1_out]

theorem V6_main_v16 (c : Dev nD) : Gen.V6 m (outs m) c main_v16 = res2 (entry2 m) c t2_0 := by
  show Function.update (Gen.V5 m (outs m) c) main_v16 (outs m 6 main_v16 c) main_v16 = _
  rw [Function.update_self, outs_main_v16, arrAt2_out]

def pdats : (p : Fin 3) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c

abbrev noL : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

abbrev exit0 : (c : Dev nD) → (b : Ref sig .tc) → Buf (Elt F) ((c : Thread nD τ).loc b) := fun c b => Gen.V2 m (outs m) c b
abbrev exit1 : (c : Dev nD) → (b : Ref sig .tc) → Buf (Elt F) ((c : Thread nD τ).loc b) := fun c b => Gen.V4 m (outs m) c b
abbrev exit2 : (c : Dev nD) → (b : Ref sig .tc) → Buf (Elt F) ((c : Thread nD τ).loc b) := fun c b => Gen.V6 m (outs m) c b

theorem exitArr0 (c : Dev nD) (w : Fin cfg0.W) :
    (dat0 (entry0 m) c).arrAt w cfg0.N = exit0 m c (Pipeline.arrRef spec0 w) := by
  by_cases hw : w = 9
  · subst hw
    show _ = Function.update (Gen.V1 m c) main_v4 (outs m 2 main_v4 c) main_v4
    rw [Function.update_self, outs_main_v4]
  · rw [arrAt0_in (entry0 m) c w hw]
    refine (Gen.V2_of m (outs m) c (Pipeline.arrRef spec0 w) ?_).symm
    revert hw; revert w; decide
theorem exitRest0 (c : Dev nD) : ∀ b : Ref sig .tc, b ∉ Finset.univ.image (Pipeline.arrRef spec0) →
    exit0 m c b = entry0 m c b := fun b hb =>
  Gen.V2_of m (outs m) c b fun h => hb (Finset.mem_image.mpr ⟨9, Finset.mem_univ _, (List.mem_singleton.mp h).symm⟩)

theorem exitArr1 (c : Dev nD) (w : Fin cfg1.W) :
    (dat1 (entry1 m) c).arrAt w cfg1.N = exit1 m c (Pipeline.arrRef spec1 w) := by
  by_cases hw : w = 9
  · subst hw
    show _ = Function.update (Gen.V3 m (outs m) c) main_v9 (outs m 4 main_v9 c) main_v9
    rw [Function.update_self, outs_main_v9]
  · rw [arrAt1_in (entry1 m) c w hw]
    refine (Gen.V4_of m (outs m) c (Pipeline.arrRef spec1 w) ?_).symm
    revert hw; revert w; decide
theorem exitRest1 (c : Dev nD) : ∀ b : Ref sig .tc, b ∉ Finset.univ.image (Pipeline.arrRef spec1) →
    exit1 m c b = entry1 m c b := fun b hb =>
  Gen.V4_of m (outs m) c b fun h => hb (Finset.mem_image.mpr ⟨9, Finset.mem_univ _, (List.mem_singleton.mp h).symm⟩)

theorem exitArr2 (c : Dev nD) (w : Fin cfg2.W) :
    (dat2 (entry2 m) c).arrAt w cfg2.N = exit2 m c (Pipeline.arrRef spec2 w) := by
  by_cases hw : w = 11
  · subst hw
    show _ = Function.update (Gen.V5 m (outs m) c) main_v16 (outs m 6 main_v16 c) main_v16
    rw [Function.update_self, outs_main_v16]
  · rw [arrAt2_in (entry2 m) c w hw]
    refine (Gen.V6_of m (outs m) c (Pipeline.arrRef spec2 w) ?_).symm
    revert hw; revert w; decide
theorem exitRest2 (c : Dev nD) : ∀ b : Ref sig .tc, b ∉ Finset.univ.image (Pipeline.arrRef spec2) →
    exit2 m c b = entry2 m c b := fun b hb =>
  Gen.V6_of m (outs m) c b fun h => hb (Finset.mem_image.mpr ⟨11, Finset.mem_univ _, (List.mem_singleton.mp h).symm⟩)

set_option backward.isDefEq.respectTransparency.types false in

def reg0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noL noLv 0 fun _ _ => rfl
  pre c := iprop(StableHlo.held (c : Thread nD τ) (Pipeline.ucRefs τ sig) (Gen.V1 m c) ∗ rest c)
  post c := iprop(StableHlo.held (c : Thread nD τ) (Pipeline.ucRefs τ sig) (Gen.V2 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noL noLv 1 fun _ _ => rfl
  pre c := iprop(StableHlo.held (c : Thread nD τ) (Pipeline.ucRefs τ sig) (Gen.V3 m (outs m) c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (entry1 m) c)
    unfold Pipeline.ΦA
    iintro ⟨Hp, -, Hr⟩
    isplitl [Hr]; · iexact Hr
    iexact Hp
  hout c := by
    rw [Pipeline.ownSems0_none]
    refine BIBase.Entails.trans (hout1 (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ Variants.none noL noLv 2 where
  win := launch2.win.to₀
  block_pos := launch2.block_pos
  stage_whole := launch2.stage_whole
  K := PEmpty
  osem k := k.elim
  ho := Pipeline.OwnSemFacts.none _
  hbody c := (body_obligation2 (entry2 m) c).loose
  hwaits := Pipeline.hwaits_of_owed_zero _ _ _ _ noL noLv 2 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]
    unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (exit2 m c) ((pdats m 2 c).arrAt · cfg2.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem rest_owes (c : Dev nD) : rest (F := F) c ⊢ (iprop(∃ W, owes (c : Thread nD τ) (0 : CellTallies nD τ sig Unit) W) : sProp 𝕄) := by
  iintro ⟨-, H⟩; iexact H

/-- What the run leaves on core `c`: the result array at the last region's output, every argument as it was. -/
abbrev kept (c : Dev nD) (mem : (ℓ : Loc nD τ sig) → Buf (Elt F) ℓ) : Prop :=
  mem ((c.tc : Thread nD τ).loc main_v16) = Gen.V6 m (outs m) c main_v16
  ∧ mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)

set_option backward.isDefEq.respectTransparency.types false in

theorem run : θ_run defs (onTc (τ := τ) (main (F := F))) ⟨m, fun _ => 0, ρ⟩ (fun r => ∀ c : Dev nD, kept m c r.2.mem) := by
  refine Pipeline.θ_run_regions_kit_dev (pcfgs (F := F)) adm (pdats m) () cellOf_inj emb₁ defs₀ Variants.none noL noLv m ρ main
    (Gen.segs m (outs m) Variants.none noL noLv (fun _ => rest) () (pdats m) (reg0 m) (reg1 m) (reg2 m))
    (fun c Q => by
      rewrite [main_chain c, Pipeline.Seg.run_eq_chain,
        show (Gen.segs m (outs m) Variants.none noL noLv (fun _ => rest) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V6 m (outs m) c))
    (hch := fun c => ⟨.rfl, .rfl, .rfl, .rfl, .rfl, .rfl, sep_mono .rfl (rest_owes c)⟩)
    (hinit := ?_)
    (QY := fun c s => kept m c s.mem)
    (hfin := fun c s' => ?_) (hQ := fun _ h => h)
  ·
    refine Pipeline.initEach noL noLv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      have hk := fun (b : Ref sig .tc) hb => h (Proc.devRef .tc b) (Finset.mem_filter.mpr ⟨StableHlo.devRef_mem_tcRefs b, hb⟩)
      exact ⟨hk main_v16 (by decide),
        (hk main_arg0 (by decide)).trans (Gen.V6_main_arg0 m (outs m) c),
        (hk main_arg1 (by decide)).trans (Gen.V6_main_arg1 m (outs m) c),
        (hk main_arg2 (by decide)).trans (Gen.V6_main_arg2 m (outs m) c),
        (hk main_arg3 (by decide)).trans (Gen.V6_main_arg3 m (outs m) c),
        (hk main_arg4 (by decide)).trans (Gen.V6_main_arg4 m (outs m) c),
        (hk main_arg5 (by decide)).trans (Gen.V6_main_arg5 m (outs m) c),
        (hk main_arg6 (by decide)).trans (Gen.V6_main_arg6 m (outs m) c),
        (hk main_arg7 (by decide)).trans (Gen.V6_main_arg7 m (outs m) c),
        (hk main_arg8 (by decide)).trans (Gen.V6_main_arg8 m (outs m) c),
        (hk main_arg9 (by decide)).trans (Gen.V6_main_arg9 m (outs m) c),
        (hk main_arg10 (by decide)).trans (Gen.V6_main_arg10 m (outs m) c),
        (hk main_arg11 (by decide)).trans (Gen.V6_main_arg11 m (outs m) c),
        (hk main_arg12 (by decide)).trans (Gen.V6_main_arg12 m (outs m) c),
        (hk main_arg13 (by decide)).trans (Gen.V6_main_arg13 m (outs m) c),
        (hk main_arg14 (by decide)).trans (Gen.V6_main_arg14 m (outs m) c),
        (hk main_arg15 (by decide)).trans (Gen.V6_main_arg15 m (outs m) c),
        (hk main_arg16 (by decide)).trans (Gen.V6_main_arg16 m (outs m) c),
        (hk main_arg17 (by decide)).trans (Gen.V6_main_arg17 m (outs m) c)⟩
    · iexact HSI

end Cert.KernelIdeal.Hand

end
-- ==== Proof.Val.RefGen.lean ====
import proofs.«421210_j62689342652499_1_alg».proof.Proof.Gen.ReferenceIdeal.Run
import proofs.«421210_j62689342652499_1_alg».proof.Proof.Gen.ReferenceIdeal.Read
-- ==== Proof.Val.Spec.lean ====
import Idealize.ShloMosaic.PureOps.Ideal
import Idealize.ShloMosaic.Lib.ValueIdx

noncomputable section

namespace Cert.Spec

open Idealize.ShloMosaic Idealize.ShloMosaic.ValueIdx
open Finset BigOperators

abbrev zero : EReal := Ideal.ofBits .f32 0x00000000#32
abbrev two : EReal := Ideal.ofBits .f32 0x40000000#32
abbrev twoSigmaSq : EReal := Ideal.ofBits .f32 0x3CA3D70A#32

section Point

variable (theta : (⟨2, ![64, 2]⟩ : Shape).Idx → EReal)
  (Ww0 : (⟨2, ![2, 64]⟩ : Shape).Idx → EReal) (bw0 : (⟨1, ![64]⟩ : Shape).Idx → EReal)
  (Ww1 : (⟨2, ![64, 64]⟩ : Shape).Idx → EReal) (bw1 : (⟨1, ![64]⟩ : Shape).Idx → EReal)
  (Wwo : (⟨2, ![64, 1]⟩ : Shape).Idx → EReal) (bwo : (⟨1, ![1]⟩ : Shape).Idx → EReal)

def sqDist (x : Fin 2 → EReal) (q : Fin 64) : EReal :=
  ((∑ k : Fin 2, x k * x k) + (∑ k : Fin 2, theta (ix2 q k) * theta (ix2 q k)))
    - two * (∑ k : Fin 2, x k * theta (ix2 q k))

def gauss (x : Fin 2 → EReal) (q : Fin 64) : EReal :=
  Ideal.exp (Ideal.div (zero - sqDist theta x q) twoSigmaSq)

def hid1 (x : Fin 2 → EReal) (j : Fin 64) : EReal :=
  max ((∑ k : Fin 2, x k * Ww0 (ix2 k j)) + bw0 (ix1 j)) zero
def hid2 (x : Fin 2 → EReal) (j : Fin 64) : EReal :=
  max ((∑ i : Fin 64, hid1 Ww0 bw0 x i * Ww1 (ix2 i j)) + bw1 (ix1 j)) zero

def weight (x : Fin 2 → EReal) : EReal :=
  Ideal.logistic ((∑ i : Fin 64, hid2 Ww0 bw0 Ww1 bw1 x i * Wwo (ix2 i (0 : Fin 1))) + bwo (ix1 (0 : Fin 1)))

def feat (x : Fin 2 → EReal) (q : Fin 64) : EReal :=
  weight Ww0 bw0 Ww1 bw1 Wwo bwo x * gauss theta x q

def pooled (pts : (⟨2, ![524288, 2]⟩ : Shape).Idx → EReal) (ids : (⟨1, ![524288]⟩ : Shape).Idx → BitVec 32)
    (b : Fin 1024) (q : Fin 64) : EReal :=
  ∑ r : Fin 524288, if ids (ix1 r) = BitVec.ofNat 32 b.val
    then feat theta Ww0 bw0 Ww1 bw1 Wwo bwo (fun k => pts (ix2 r k)) q else 0

end Point

section Classifier

variable (v0 v1 : Fin 1024 → Fin 64 → EReal) (gf : (⟨2, ![1024, 16]⟩ : Shape).Idx → EReal)
  (Wr0 : (⟨2, ![144, 128]⟩ : Shape).Idx → EReal) (br0 : (⟨1, ![128]⟩ : Shape).Idx → EReal)
  (Wr1 : (⟨2, ![128, 128]⟩ : Shape).Idx → EReal) (br1 : (⟨1, ![128]⟩ : Shape).Idx → EReal)
  (Wro : (⟨2, ![128, 10]⟩ : Shape).Idx → EReal) (bro : (⟨1, ![10]⟩ : Shape).Idx → EReal)

def cls1 (b : Fin 1024) (j : Fin 128) : EReal :=
  max (((((∑ i : Fin 64, v0 b i * Wr0 (ix2 (⟨i.val, by omega⟩ : Fin 144) j))
        + (∑ i : Fin 64, v1 b i * Wr0 (ix2 (⟨64 + i.val, by omega⟩ : Fin 144) j)))
        + (∑ i : Fin 16, gf (ix2 b i) * Wr0 (ix2 (⟨128 + i.val, by omega⟩ : Fin 144) j)))
        + br0 (ix1 j))) zero
def cls2 (b : Fin 1024) (j : Fin 128) : EReal :=
  max ((∑ i : Fin 128, cls1 v0 v1 gf Wr0 br0 b i * Wr1 (ix2 i j)) + br1 (ix1 j)) zero
def cls3 (b : Fin 1024) (j : Fin 10) : EReal :=
  (∑ i : Fin 128, cls2 v0 v1 gf Wr0 br0 Wr1 br1 b i * Wro (ix2 i j)) + bro (ix1 j)

end Classifier

def result
    (diag0 diag1 : (⟨2, ![524288, 2]⟩ : Shape).Idx → EReal) (gf : (⟨2, ![1024, 16]⟩ : Shape).Idx → EReal)
    (theta : (⟨2, ![64, 2]⟩ : Shape).Idx → EReal)
    (Ww0 : (⟨2, ![2, 64]⟩ : Shape).Idx → EReal) (bw0 : (⟨1, ![64]⟩ : Shape).Idx → EReal)
    (Ww1 : (⟨2, ![64, 64]⟩ : Shape).Idx → EReal) (bw1 : (⟨1, ![64]⟩ : Shape).Idx → EReal)
    (Wwo : (⟨2, ![64, 1]⟩ : Shape).Idx → EReal) (bwo : (⟨1, ![1]⟩ : Shape).Idx → EReal)
    (Wr0 : (⟨2, ![144, 128]⟩ : Shape).Idx → EReal) (br0 : (⟨1, ![128]⟩ : Shape).Idx → EReal)
    (Wr1 : (⟨2, ![128, 128]⟩ : Shape).Idx → EReal) (br1 : (⟨1, ![128]⟩ : Shape).Idx → EReal)
    (Wro : (⟨2, ![128, 10]⟩ : Shape).Idx → EReal) (bro : (⟨1, ![10]⟩ : Shape).Idx → EReal)
    (batch0 batch1 : (⟨1, ![524288]⟩ : Shape).Idx → BitVec 32) :
    (⟨2, ![1024, 10]⟩ : Shape).Idx → EReal :=
  fun i => cls3 (pooled theta Ww0 bw0 Ww1 bw1 Wwo bwo diag0 batch0) (pooled theta Ww0 bw0 Ww1 bw1 Wwo bwo diag1 batch1)
    gf Wr0 br0 Wr1 br1 Wro bro (i 0) (i 1)

end Cert.Spec

end
-- ==== Proof.Val.RefScatter.lean ====
import proofs.«421210_j62689342652499_1_alg».proof.Proof.Val.RefGen
import Idealize.ShloMosaic.Lib.ValueIdx
import Idealize.ShloMosaic.Lib.Pipeline.Value
import Idealize.ShloMosaic.PureOps.Ideal.Laws

set_option maxRecDepth 16384

noncomputable section

namespace Cert.ReferenceIdeal.Val

open Idealize.ShloMosaic Idealize.ShloMosaic.TcCoe Idealize.ShloMosaic.ValueIdx Idealize.SL.Sem
open Finset BigOperators
open Cert.ReferenceIdeal Cert.ReferenceIdeal.Gen Cert.ReferenceIdeal.Read

abbrev sd := scatter_S1024x64_S524288x1_S524288x64_1_0_0_1

theorem sd_window0 (j : S524288x64.Idx) : sd.window j 0 = 0 := by
  unfold ScatterDims.window
  rw [dif_neg (by decide)]

theorem sd_window1 (j : S524288x64.Idx) : sd.window j 1 = (j 1).val := by
  unfold ScatterDims.window
  rw [dif_pos (by decide)]
  rfl

theorem sd_start1 (j : S524288x64.Idx) (t : IVec S524288x1 32) : sd.start j t 1 = 0 := by
  unfold ScatterDims.start
  rw [dif_neg (by decide)]

theorem sd_siIdx (j : S524288x64.Idx) (c : Fin sd.scatterDimsToOperandDims.length) :
    sd.siIdx j c = ix2 (j 0) (0 : Fin 1) := by
  funext a
  match a with
  | ⟨0, _⟩ => rfl
  | ⟨1, _⟩ =>
    apply Fin.ext
    have hc : c.val < 1 := c.isLt
    show c.val = 0
    omega

theorem sd_start0 (j : S524288x64.Idx) (t : IVec S524288x1 32) :
    sd.start j t 0 = (t (ix2 (j 0) (0 : Fin 1))).toInt := by
  unfold ScatterDims.start
  rw [dif_pos (by decide), sd_siIdx]
  rfl

theorem sd_sum0 (j : S524288x64.Idx) (t : IVec S524288x1 32) :
    sd.start j t 0 + (sd.window j 0 : Int) = (t (ix2 (j 0) (0 : Fin 1))).toInt := by
  rw [sd_window0, sd_start0]; simp

theorem sd_sum1 (j : S524288x64.Idx) (t : IVec S524288x1 32) :
    sd.start j t 1 + (sd.window j 1 : Int) = ((j 1).val : Int) := by
  rw [sd_window1, sd_start1]; simp

theorem sd_resultIdx_eq_some (j : S524288x64.Idx) (t : IVec S524288x1 32) (i : S1024x64.Idx) :
    sd.resultIdx? j t = some i ↔ (t (ix2 (j 0) (0 : Fin 1))).toInt = ((i 0).val : Int) ∧ (j 1).val = (i 1).val := by
  unfold ScatterDims.resultIdx?
  constructor
  · intro h
    split_ifs at h with hc
    have hi := Option.some.inj h
    have h0 : ((sd.start j t 0 + (sd.window j 0 : Int)).toNat) = (i 0).val := congrArg (fun f : S1024x64.Idx => (f 0).val) hi
    have h1 : ((sd.start j t 1 + (sd.window j 1 : Int)).toNat) = (i 1).val := congrArg (fun f : S1024x64.Idx => (f 1).val) hi
    have c0 := (hc 0).1
    rw [sd_sum0] at h0 c0
    rw [sd_sum1] at h1
    constructor
    · omega
    · simpa using h1
  · rintro ⟨h0, h1⟩
    have hc : ∀ a, 0 ≤ sd.start j t a + (sd.window j a : Int) ∧ sd.start j t a + (sd.window j a : Int) < (S1024x64.size a : Int) := by
      intro a
      match a with
      | ⟨0, _⟩ =>
        have := idx2_lt0 i
        show 0 ≤ sd.start j t 0 + (sd.window j 0 : Int) ∧ sd.start j t 0 + (sd.window j 0 : Int) < (1024 : Int)
        rw [sd_sum0, h0]; omega
      | ⟨1, _⟩ =>
        have := idx2_lt1 j
        show 0 ≤ sd.start j t 1 + (sd.window j 1 : Int) ∧ sd.start j t 1 + (sd.window j 1 : Int) < (64 : Int)
        rw [sd_sum1]; omega
    rw [dif_pos hc]
    congr 1
    funext a
    match a with
    | ⟨0, _⟩ =>
      apply Fin.ext
      show (sd.start j t 0 + (sd.window j 0 : Int)).toNat = (i 0).val
      rw [sd_sum0, h0]; simp
    | ⟨1, _⟩ =>
      apply Fin.ext
      show (sd.start j t 1 + (sd.window j 1 : Int)).toNat = (i 1).val
      rw [sd_sum1]; simpa using h1

theorem toInt_eq_row (x : BitVec 32) (b : Fin 1024) : x.toInt = (b.val : Int) ↔ x = BitVec.ofNat 32 b.val := by
  have hb := b.isLt
  constructor
  · intro h
    apply BitVec.eq_of_toNat_eq
    rw [BitVec.toInt_eq_toNat_cond] at h
    have hx := x.isLt
    rw [BitVec.toNat_ofNat]
    split_ifs at h <;> omega
  · rintro rfl
    rw [BitVec.toInt_eq_toNat_cond, BitVec.toNat_ofNat]
    have : b.val % 2 ^ 32 = b.val := Nat.mod_eq_of_lt (by omega)
    rw [this]
    split_ifs with hlt
    · rfl
    · exfalso; omega

theorem lands_iff (c : S524288x1.Idx → BitVec 32) (t : S524288.Idx → BitVec 32)
    (hc : ∀ r : Fin 524288, c (ix2 r (0 : Fin 1)) = t (ix1 r))
    (r : Fin 524288) (q' : Fin 64) (b : Fin 1024) (q : Fin 64) :
    sd.resultIdx? (ix2 r q') c = some (ix2 b q) ↔ t (ix1 r) = BitVec.ofNat 32 b.val ∧ q' = q := by
  rw [sd_resultIdx_eq_some]
  show (c (ix2 r (0 : Fin 1))).toInt = (b.val : Int) ∧ q'.val = q.val ↔ _
  rw [hc, toInt_eq_row, Fin.val_inj]

theorem scatter_by_tag (z : S1024x64.Idx → EReal) (hz : ∀ i, z i = 0)
    (c : S524288x1.Idx → BitVec 32) (t : S524288.Idx → BitVec 32)
    (hc : ∀ r : Fin 524288, c (ix2 r (0 : Fin 1)) = t (ix1 r))
    (u : S524288x64.Idx → EReal) (b : Fin 1024) (q : Fin 64) :
    Host.scatterAdd (F := Ideal) (φ := .f32) scatter_S1024x64_S524288x1_S524288x64_1_0_0_1 z c u (ix2 b q)
      = ∑ r : Fin 524288, if t (ix1 r) = BitVec.ofNat 32 b.val then u (ix2 r q) else 0 := by
  show Ideal.hostScatterAdd sd z c u (ix2 b q) = _
  unfold Ideal.hostScatterAdd
  rw [hz, zero_add, Finset.sum_filter, sum_idx2]
  refine Finset.sum_congr rfl fun r _ => ?_
  rw [Finset.sum_eq_single q]
  · by_cases ht : t (ix1 r) = BitVec.ofNat 32 b.val
    · rw [if_pos ((lands_iff c t hc r q b q).2 ⟨ht, rfl⟩), if_pos ht]
    · rw [if_neg (fun h => ht ((lands_iff c t hc r q b q).1 h).1), if_neg ht]
  · intro q' _ hq
    exact if_neg (fun h => hq ((lands_iff c t hc r q' b q).1 h).2)
  · intro h
    exact absurd (Finset.mem_univ q) h

theorem ref_scatter0 (t : S524288.Idx → BitVec 32) (u : S524288x64.Idx → EReal) (b : Fin 1024) (q : Fin 64) :
    Host.scatterAdd (F := Ideal) (φ := .f32) scatter_S1024x64_S524288x1_S524288x64_1_0_0_1
        (val_main_v40 (F := Ideal)) (val_main_v41 (F := Ideal) t) u (ix2 b q)
      = ∑ r : Fin 524288, if t (ix1 r) = BitVec.ofNat 32 b.val then u (ix2 r q) else 0 := by
  refine scatter_by_tag _ (fun i => ?_) _ t (fun r => ?_) u b q
  · rw [val_main_v40_apply, val_main_cst_5_apply, Ideal.ofBits_def, Ideal.ofBits_zero_f32]
  · rw [val_main_v41_apply]
    exact congrArg t (funext fun a => Fin.ext (by match a with | ⟨0, _⟩ => rfl))

theorem ref_scatter1 (t : S524288.Idx → BitVec 32) (u : S524288x64.Idx → EReal) (b : Fin 1024) (q : Fin 64) :
    Host.scatterAdd (F := Ideal) (φ := .f32) scatter_S1024x64_S524288x1_S524288x64_1_0_0_1
        (val_main_v83 (F := Ideal)) (val_main_v84 (F := Ideal) t) u (ix2 b q)
      = ∑ r : Fin 524288, if t (ix1 r) = BitVec.ofNat 32 b.val then u (ix2 r q) else 0 := by
  refine scatter_by_tag _ (fun i => ?_) _ t (fun r => ?_) u b q
  · rw [val_main_v83_apply, val_main_cst_12_apply, Ideal.ofBits_def, Ideal.ofBits_zero_f32]
  · rw [val_main_v84_apply]
    exact congrArg t (funext fun a => Fin.ext (by match a with | ⟨0, _⟩ => rfl))

end Cert.ReferenceIdeal.Val

end
-- ==== Proof.Val.RefFeat.lean ====
import proofs.«421210_j62689342652499_1_alg».proof.Proof.Val.Spec
import proofs.«421210_j62689342652499_1_alg».proof.Proof.Val.RefGen
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.EReal.Operations

set_option maxRecDepth 16384

noncomputable section

namespace Cert.ReferenceIdeal.Val

open Idealize.ShloMosaic Idealize.ShloMosaic.TcCoe Idealize.ShloMosaic.ValueIdx Idealize.SL.Sem
open Finset BigOperators
open Cert.ReferenceIdeal Cert.ReferenceIdeal.Gen Cert.ReferenceIdeal.Read

theorem word_two : Ideal.ofBits .f32 0x40000000#32 = ((2 : ℝ) : EReal) := by
  simp [Ideal.ofBits, Ideal.ieee, -EReal.coe_mul]; norm_num

theorem word_one : Ideal.ofBits .f32 0x3F800000#32 = 1 := by
  simp [Ideal.ofBits, Ideal.ieee, -EReal.coe_mul]; norm_num

theorem two_mul_sum (a b : Fin 2 → EReal) :
    ∑ k : Fin 2, (Ideal.ofBits .f32 0x40000000#32 * a k) * b k
      = Ideal.ofBits .f32 0x40000000#32 * ∑ k : Fin 2, a k * b k := by
  rw [word_two, Fin.sum_univ_two, Fin.sum_univ_two,
    EReal.left_distrib_of_nonneg_of_ne_top (EReal.coe_nonneg.2 (by norm_num)) (EReal.coe_ne_top _), mul_assoc, mul_assoc]

section Branch0
variable (x0 : (⟨S524288x2, .f32⟩ : BufTy).Contents (Elt Ideal)) (x3 : (⟨S64x2, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))

theorem ref_gauss0 (r : Fin 524288) (q : Fin 64) :
    val_main_v17 (F := Ideal) x0 x3 (ix2 r q) = Spec.gauss x3 (fun k => x0 (ix2 r k)) q := by
  have h1 : ∀ k : Fin 2, idx_main_v1 (idx_main_v2 (idx_main_v6 (ix2 r q))) k = ix2 r k := fun k =>
    funext fun a => Fin.ext (by match a with | ⟨0, _⟩ => rfl | ⟨1, _⟩ => rfl)
  have h4 : ∀ k : Fin 2, idx_main_v4 (idx_main_v5 (idx_main_v7 (ix2 r q))) k = ix2 q k := fun k =>
    funext fun a => Fin.ext (by match a with | ⟨0, _⟩ => rfl | ⟨1, _⟩ => rfl)
  have hl : ∀ k : Fin 2, lidx_main_v12 (ix2 r q) k = ix2 r k := fun k =>
    funext fun a => Fin.ext (by match a with | ⟨0, _⟩ => rfl | ⟨1, _⟩ => rfl)
  have hr : ∀ k : Fin 2, idx_main_v11 (ridx_main_v12 (ix2 r q) k) = ix2 q k := fun k =>
    funext fun a => Fin.ext (by match a with | ⟨0, _⟩ => rfl | ⟨1, _⟩ => rfl)
  simp only [val_main_v17_apply, val_main_v16_apply, val_main_v15_apply, val_main_cst_2_apply, val_main_v14_apply,
    val_main_v13_apply, val_main_v12_apply, val_main_v11_apply, val_main_v10_apply, val_main_v9_apply,
    val_main_cst_1_apply, val_main_v8_apply, val_main_v7_apply, val_main_v6_apply, val_main_v5_apply,
    val_main_v4_apply, val_main_v3_apply, val_main_cst_0_apply, val_main_v2_apply, val_main_v1_apply,
    val_main_v0_apply, val_main_cst_apply,
    Ideal.hostUnary_exp_def, Ideal.hostDivf_def, Ideal.hostNegf_def, Ideal.negf_def, Ideal.subf_def, Ideal.addf_def,
    Ideal.mulf_def, Ideal.ofBits_def, h1, h4, hl, hr]
  rw [Ideal.ofBits_zero_f32, zero_add, zero_add, two_mul_sum]
  simp only [Spec.gauss, Spec.sqDist, Spec.zero, Spec.two, Spec.twoSigmaSq, Ideal.ofBits_zero_f32, zero_sub]

theorem ref_hid1_0 (r : Fin 524288) (j : Fin 64) :
    val_main_v22 (F := Ideal) x0 x4 x5 (ix2 r j) = Spec.hid1 x4 x5 (fun k => x0 (ix2 r k)) j := by
  have hl : ∀ k : Fin 2, lidx_main_v18 (ix2 r j) k = ix2 r k := fun k =>
    funext fun a => Fin.ext (by match a with | ⟨0, _⟩ => rfl | ⟨1, _⟩ => rfl)
  have hr : ∀ k : Fin 2, ridx_main_v18 (ix2 r j) k = ix2 k j := fun k =>
    funext fun a => Fin.ext (by match a with | ⟨0, _⟩ => rfl | ⟨1, _⟩ => rfl)
  have hb : idx_main_v19 (idx_main_v20 (ix2 r j)) = ix1 j :=
    funext fun a => Fin.ext (by match a with | ⟨0, _⟩ => rfl)
  simp only [val_main_v22_apply, val_main_v21_apply, val_main_v18_apply, val_main_v20_apply, val_main_v19_apply,
    val_main_call0_v0_apply, val_main_call0_cst_apply, Ideal.maximumf_def, Ideal.addf_def, Ideal.ofBits_def, hl, hr, hb]
  rfl

theorem ref_hid2_0 (r : Fin 524288) (j : Fin 64) :
    val_main_v27 (F := Ideal) x0 x4 x5 x6 x7 (ix2 r j) = Spec.hid2 x4 x5 x6 x7 (fun k => x0 (ix2 r k)) j := by
  have hl : ∀ k : Fin 64, lidx_main_v23 (ix2 r j) k = ix2 r k := fun k =>
    funext fun a => Fin.ext (by match a with | ⟨0, _⟩ => rfl | ⟨1, _⟩ => rfl)
  have hr : ∀ k : Fin 64, ridx_main_v23 (ix2 r j) k = ix2 k j := fun k =>
    funext fun a => Fin.ext (by match a with | ⟨0, _⟩ => rfl | ⟨1, _⟩ => rfl)
  have hb : idx_main_v24 (idx_main_v25 (ix2 r j)) = ix1 j :=
    funext fun a => Fin.ext (by match a with | ⟨0, _⟩ => rfl)
  simp only [val_main_v27_apply, val_main_v26_apply, val_main_v23_apply, val_main_v25_apply, val_main_v24_apply,
    val_main_call1_v0_apply, val_main_call1_cst_apply, Ideal.maximumf_def, Ideal.addf_def, Ideal.ofBits_def, hl, hr, hb,
    ref_hid1_0]
  rfl

theorem ref_weight0 (r : Fin 524288) :
    val_main_v37 (F := Ideal) x0 x4 x5 x6 x7 x8 x9 (ix2 r (0 : Fin 1))
      = Spec.weight x4 x5 x6 x7 x8 x9 (fun k => x0 (ix2 r k)) := by
  have hl : ∀ k : Fin 64, lidx_main_v28 (ix2 r (0 : Fin 1)) k = ix2 r k := fun k =>
    funext fun a => Fin.ext (by match a with | ⟨0, _⟩ => rfl | ⟨1, _⟩ => rfl)
  have hr : ∀ k : Fin 64, ridx_main_v28 (ix2 r (0 : Fin 1)) k = ix2 k (0 : Fin 1) := fun k =>
    funext fun a => Fin.ext (by match a with | ⟨0, _⟩ => rfl | ⟨1, _⟩ => rfl)
  have hb : idx_main_v29 (idx_main_v30 (ix2 r (0 : Fin 1))) = ix1 (0 : Fin 1) :=
    funext fun a => Fin.ext (by match a with | ⟨0, _⟩ => rfl)
  simp only [val_main_v37_apply, val_main_v36_apply, val_main_cst_4_apply, val_main_v35_apply, val_main_v34_apply,
    val_main_cst_3_apply, val_main_v33_apply, val_main_v32_apply, val_main_v31_apply, val_main_v28_apply,
    val_main_v30_apply, val_main_v29_apply, Ideal.hostDivf_def, Ideal.hostUnary_exp_def, Ideal.hostNegf_def,
    Ideal.negf_def, Ideal.addf_def, Ideal.ofBits_def, hl, hr, hb, ref_hid2_0, word_one]
  rfl

theorem ref_feat0 (r : Fin 524288) (q : Fin 64) :
    val_main_v39 (F := Ideal) x0 x3 x4 x5 x6 x7 x8 x9 (ix2 r q)
      = Spec.feat x3 x4 x5 x6 x7 x8 x9 (fun k => x0 (ix2 r k)) q := by
  have h38 : idx_main_v38 (ix2 r q) = ix2 r (0 : Fin 1) :=
    funext fun a => Fin.ext (by match a with | ⟨0, _⟩ => rfl | ⟨1, _⟩ => rfl)
  rw [val_main_v39_apply, val_main_v38_apply, h38, ref_weight0, ref_gauss0]
  rfl

end Branch0

section Branch1
variable (x1 : (⟨S524288x2, .f32⟩ : BufTy).Contents (Elt Ideal)) (x3 : (⟨S64x2, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))

theorem ref_gauss1 (r : Fin 524288) (q : Fin 64) :
    val_main_v60 (F := Ideal) x1 x3 (ix2 r q) = Spec.gauss x3 (fun k => x1 (ix2 r k)) q := by
  have h1 : ∀ k : Fin 2, idx_main_v44 (idx_main_v45 (idx_main_v49 (ix2 r q))) k = ix2 r k := fun k =>
    funext fun a => Fin.ext (by match a with | ⟨0, _⟩ => rfl | ⟨1, _⟩ => rfl)
  have h4 : ∀ k : Fin 2, idx_main_v47 (idx_main_v48 (idx_main_v50 (ix2 r q))) k = ix2 q k := fun k =>
    funext fun a => Fin.ext (by match a with | ⟨0, _⟩ => rfl | ⟨1, _⟩ => rfl)
  have hl : ∀ k : Fin 2, lidx_main_v55 (ix2 r q) k = ix2 r k := fun k =>
    funext fun a => Fin.ext (by match a with | ⟨0, _⟩ => rfl | ⟨1, _⟩ => rfl)
  have hr : ∀ k : Fin 2, idx_main_v54 (ridx_main_v55 (ix2 r q) k) = ix2 q k := fun k =>
    funext fun a => Fin.ext (by match a with | ⟨0, _⟩ => rfl | ⟨1, _⟩ => rfl)
  simp only [val_main_v60_apply, val_main_v59_apply, val_main_v58_apply, val_main_cst_9_apply, val_main_v57_apply,
    val_main_v56_apply, val_main_v55_apply, val_main_v54_apply, val_main_v53_apply, val_main_v52_apply,
    val_main_cst_8_apply, val_main_v51_apply, val_main_v50_apply, val_main_v49_apply, val_main_v48_apply,
    val_main_v47_apply, val_main_v46_apply, val_main_cst_7_apply, val_main_v45_apply, val_main_v44_apply,
    val_main_v43_apply, val_main_cst_6_apply,
    Ideal.hostUnary_exp_def, Ideal.hostDivf_def, Ideal.hostNegf_def, Ideal.negf_def, Ideal.subf_def, Ideal.addf_def,
    Ideal.mulf_def, Ideal.ofBits_def, h1, h4, hl, hr]
  rw [Ideal.ofBits_zero_f32, zero_add, zero_add, two_mul_sum]
  simp only [Spec.gauss, Spec.sqDist, Spec.zero, Spec.two, Spec.twoSigmaSq, Ideal.ofBits_zero_f32, zero_sub]

theorem ref_hid1_1 (r : Fin 524288) (j : Fin 64) :
    val_main_v65 (F := Ideal) x1 x4 x5 (ix2 r j) = Spec.hid1 x4 x5 (fun k => x1 (ix2 r k)) j := by
  have hl : ∀ k : Fin 2, lidx_main_v61 (ix2 r j) k = ix2 r k := fun k =>
    funext fun a => Fin.ext (by match a with | ⟨0, _⟩ => rfl | ⟨1, _⟩ => rfl)
  have hr : ∀ k : Fin 2, ridx_main_v61 (ix2 r j) k = ix2 k j := fun k =>
    funext fun a => Fin.ext (by match a with | ⟨0, _⟩ => rfl | ⟨1, _⟩ => rfl)
  have hb : idx_main_v62 (idx_main_v63 (ix2 r j)) = ix1 j :=
    funext fun a => Fin.ext (by match a with | ⟨0, _⟩ => rfl)
  simp only [val_main_v65_apply, val_main_v64_apply, val_main_v61_apply, val_main_v63_apply, val_main_v62_apply,
    val_main_call2_v0_apply, val_main_call2_cst_apply, Ideal.maximumf_def, Ideal.addf_def, Ideal.ofBits_def, hl, hr, hb]
  rfl

theorem ref_hid2_1 (r : Fin 524288) (j : Fin 64) :
    val_main_v70 (F := Ideal) x1 x4 x5 x6 x7 (ix2 r j) = Spec.hid2 x4 x5 x6 x7 (fun k => x1 (ix2 r k)) j := by
  have hl : ∀ k : Fin 64, lidx_main_v66 (ix2 r j) k = ix2 r k := fun k =>
    funext fun a => Fin.ext (by match a with | ⟨0, _⟩ => rfl | ⟨1, _⟩ => rfl)
  have hr : ∀ k : Fin 64, ridx_main_v66 (ix2 r j) k = ix2 k j := fun k =>
    funext fun a => Fin.ext (by match a with | ⟨0, _⟩ => rfl | ⟨1, _⟩ => rfl)
  have hb : idx_main_v67 (idx_main_v68 (ix2 r j)) = ix1 j :=
    funext fun a => Fin.ext (by match a with | ⟨0, _⟩ => rfl)
  simp only [val_main_v70_apply, val_main_v69_apply, val_main_v66_apply, val_main_v68_apply, val_main_v67_apply,
    val_main_call3_v0_apply, val_main_call3_cst_apply, Ideal.maximumf_def, Ideal.addf_def, Ideal.ofBits_def, hl, hr, hb,
    ref_hid1_1]
  rfl

theorem ref_weight1 (r : Fin 524288) :
    val_main_v80 (F := Ideal) x1 x4 x5 x6 x7 x8 x9 (ix2 r (0 : Fin 1))
      = Spec.weight x4 x5 x6 x7 x8 x9 (fun k => x1 (ix2 r k)) := by
  have hl : ∀ k : Fin 64, lidx_main_v71 (ix2 r (0 : Fin 1)) k = ix2 r k := fun k =>
    funext fun a => Fin.ext (by match a with | ⟨0, _⟩ => rfl | ⟨1, _⟩ => rfl)
  have hr : ∀ k : Fin 64, ridx_main_v71 (ix2 r (0 : Fin 1)) k = ix2 k (0 : Fin 1) := fun k =>
    funext fun a => Fin.ext (by match a with | ⟨0, _⟩ => rfl | ⟨1, _⟩ => rfl)
  have hb : idx_main_v72 (idx_main_v73 (ix2 r (0 : Fin 1))) = ix1 (0 : Fin 1) :=
    funext fun a => Fin.ext (by match a with | ⟨0, _⟩ => rfl)
  simp only [val_main_v80_apply, val_main_v79_apply, val_main_cst_11_apply, val_main_v78_apply, val_main_v77_apply,
    val_main_cst_10_apply, val_main_v76_apply, val_main_v75_apply, val_main_v74_apply, val_main_v71_apply,
    val_main_v73_apply, val_main_v72_apply, Ideal.hostDivf_def, Ideal.hostUnary_exp_def, Ideal.hostNegf_def,
    Ideal.negf_def, Ideal.addf_def, Ideal.ofBits_def, hl, hr, hb, ref_hid2_1, word_one]
  rfl

theorem ref_feat1 (r : Fin 524288) (q : Fin 64) :
    val_main_v82 (F := Ideal) x1 x3 x4 x5 x6 x7 x8 x9 (ix2 r q)
      = Spec.feat x3 x4 x5 x6 x7 x8 x9 (fun k => x1 (ix2 r k)) q := by
  have h38 : idx_main_v81 (ix2 r q) = ix2 r (0 : Fin 1) :=
    funext fun a => Fin.ext (by match a with | ⟨0, _⟩ => rfl | ⟨1, _⟩ => rfl)
  rw [val_main_v82_apply, val_main_v81_apply, h38, ref_weight1, ref_gauss1]
  rfl

end Branch1

end Cert.ReferenceIdeal.Val

end
-- ==== Proof.Val.RefBranch.lean ====
import proofs.«421210_j62689342652499_1_alg».proof.Proof.Val.Spec
import proofs.«421210_j62689342652499_1_alg».proof.Proof.Val.RefGen
import proofs.«421210_j62689342652499_1_alg».proof.Proof.Val.RefScatter
import proofs.«421210_j62689342652499_1_alg».proof.Proof.Val.RefFeat
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Val

open Idealize.ShloMosaic Idealize.ShloMosaic.TcCoe Idealize.ShloMosaic.ValueIdx Idealize.SL.Sem
open Finset BigOperators
open Cert.ReferenceIdeal Cert.ReferenceIdeal.Gen Cert.ReferenceIdeal.Read

theorem ref_branch0 (x0 : (⟨S524288x2, .f32⟩ : BufTy).Contents (Elt Ideal)) (x3 : (⟨S64x2, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))
    (x16 : (⟨S524288, .i32⟩ : BufTy).Contents (Elt Ideal)) (i : S1024x64.Idx) :
    val_main_v42 (F := Ideal) x0 x3 x4 x5 x6 x7 x8 x9 x16 i = Spec.pooled x3 x4 x5 x6 x7 x8 x9 x0 x16 (i 0) (i 1) := by
  obtain ⟨b, q, rfl⟩ : ∃ b q, i = ix2 b q := ⟨i 0, i 1, eq_ix2 i⟩
  show val_main_v42 (F := Ideal) x0 x3 x4 x5 x6 x7 x8 x9 x16 (ix2 b q) = Spec.pooled x3 x4 x5 x6 x7 x8 x9 x0 x16 b q
  unfold val_main_v42 Spec.pooled
  rw [ref_scatter0]
  refine Finset.sum_congr rfl fun r _ => ?_
  rw [ref_feat0]

theorem ref_branch1 (x1 : (⟨S524288x2, .f32⟩ : BufTy).Contents (Elt Ideal)) (x3 : (⟨S64x2, .f32⟩ : BufTy).Contents (Elt Ideal))
    (x4 : (⟨S2x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (x9 : (⟨S1, .f32⟩ : BufTy).Contents (Elt Ideal))
    (x17 : (⟨S524288, .i32⟩ : BufTy).Contents (Elt Ideal)) (i : S1024x64.Idx) :
    val_main_v85 (F := Ideal) x1 x3 x4 x5 x6 x7 x8 x9 x17 i = Spec.pooled x3 x4 x5 x6 x7 x8 x9 x1 x17 (i 0) (i 1) := by
  obtain ⟨b, q, rfl⟩ : ∃ b q, i = ix2 b q := ⟨i 0, i 1, eq_ix2 i⟩
  show val_main_v85 (F := Ideal) x1 x3 x4 x5 x6 x7 x8 x9 x17 (ix2 b q) = Spec.pooled x3 x4 x5 x6 x7 x8 x9 x1 x17 b q
  unfold val_main_v85 Spec.pooled
  rw [ref_scatter1]
  refine Finset.sum_congr rfl fun r _ => ?_
  rw [ref_feat1]

end Cert.ReferenceIdeal.Val

end
-- ==== Proof.Val.RefCls.lean ====
import proofs.«421210_j62689342652499_1_alg».proof.Proof.Val.Spec
import proofs.«421210_j62689342652499_1_alg».proof.Proof.Val.RefGen
import proofs.«421210_j62689342652499_1_alg».proof.Proof.Val.RefBranch
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.ReferenceIdeal.Val

open Idealize.ShloMosaic Idealize.ShloMosaic.TcCoe Idealize.ShloMosaic.ValueIdx Idealize.SL.Sem
open Finset BigOperators
open Cert.ReferenceIdeal Cert.ReferenceIdeal.Gen Cert.ReferenceIdeal.Read

section Join
variable {α : Type} (y0 y1 : S1024x64.Idx → α) (g : S1024x16.Idx → α)

theorem join_first (b : Fin 1024) (k : Fin 64) :
    concatenate S1024x144 1 [⟨S1024x64, y0⟩, ⟨S1024x64, y1⟩, ⟨S1024x16, g⟩]
      concatenates_S1024x64_S1024x64_S1024x16_S1024x144_d1 (ix2 b (⟨k.val, by omega⟩ : Fin 144)) = y0 (ix2 b k) := by
  refine concatenate_apply_piece (1 : Fin S1024x144.rank) _ _ _ 0 (by show (0 : Nat) < 3; omega) S1024x64 y0 rfl rfl 0 rfl (ix2 b k) ?_ ?_
  · intro c hc
    match c, hc with
    | ⟨0, _⟩, _ => rfl
    | ⟨1, _⟩, hc => exact absurd rfl hc
  · exact Nat.zero_add _

theorem join_second (b : Fin 1024) (k : Fin 64) :
    concatenate S1024x144 1 [⟨S1024x64, y0⟩, ⟨S1024x64, y1⟩, ⟨S1024x16, g⟩]
      concatenates_S1024x64_S1024x64_S1024x16_S1024x144_d1 (ix2 b (⟨64 + k.val, by omega⟩ : Fin 144)) = y1 (ix2 b k) := by
  refine concatenate_apply_piece (1 : Fin S1024x144.rank) _ _ _ 1 (by show (1 : Nat) < 3; omega) S1024x64 y1 rfl rfl 64 rfl (ix2 b k) ?_ ?_
  · intro c hc
    match c, hc with
    | ⟨0, _⟩, _ => rfl
    | ⟨1, _⟩, hc => exact absurd rfl hc
  · rfl

theorem join_third (b : Fin 1024) (k : Fin 16) :
    concatenate S1024x144 1 [⟨S1024x64, y0⟩, ⟨S1024x64, y1⟩, ⟨S1024x16, g⟩]
      concatenates_S1024x64_S1024x64_S1024x16_S1024x144_d1 (ix2 b (⟨128 + k.val, by omega⟩ : Fin 144)) = g (ix2 b k) := by
  refine concatenate_apply_piece (1 : Fin S1024x144.rank) _ _ _ 2 (by show (2 : Nat) < 3; omega) S1024x16 g rfl rfl 128 rfl (ix2 b k) ?_ ?_
  · intro c hc
    match c, hc with
    | ⟨0, _⟩, _ => rfl
    | ⟨1, _⟩, hc => exact absurd rfl hc
  · rfl

end Join

theorem sum_cut_144 {M : Type} [AddCommMonoid M] (f : Fin 144 → M) :
    ∑ k : Fin 144, f k
      = ((∑ i : Fin 64, f ⟨i.val, by omega⟩) + (∑ i : Fin 64, f ⟨64 + i.val, by omega⟩))
        + (∑ i : Fin 16, f ⟨128 + i.val, by omega⟩) := by
  have h : ∑ k : Fin 144, f k = ∑ k : Fin ((64 + 64) + 16), f k := rfl
  rw [h, Fin.sum_univ_add, Fin.sum_univ_add]
  rfl

section Layers
variable (x0 x1 : (⟨S524288x2, .f32⟩ : BufTy).Contents (Elt Ideal)) (x2 : (⟨S1024x16, .f32⟩ : BufTy).Contents (Elt Ideal))
    (x3 : (⟨S64x2, .f32⟩ : BufTy).Contents (Elt Ideal)) (x4 : (⟨S2x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x1, .f32⟩ : BufTy).Contents (Elt Ideal))
    (x9 : (⟨S1, .f32⟩ : BufTy).Contents (Elt Ideal)) (x10 : (⟨S144x128, .f32⟩ : BufTy).Contents (Elt Ideal))
    (x11 : (⟨S128, .f32⟩ : BufTy).Contents (Elt Ideal)) (x12 : (⟨S128x128, .f32⟩ : BufTy).Contents (Elt Ideal))
    (x13 : (⟨S128, .f32⟩ : BufTy).Contents (Elt Ideal)) (x14 : (⟨S128x10, .f32⟩ : BufTy).Contents (Elt Ideal))
    (x15 : (⟨S10, .f32⟩ : BufTy).Contents (Elt Ideal)) (x16 x17 : (⟨S524288, .i32⟩ : BufTy).Contents (Elt Ideal))

theorem ref_cls1 (b : Fin 1024) (j : Fin 128) :
    val_main_v91 (F := Ideal) x0 x1 x2 x3 x4 x5 x6 x7 x8 x9 x10 x11 x16 x17 (ix2 b j)
      = Spec.cls1 (Spec.pooled x3 x4 x5 x6 x7 x8 x9 x0 x16) (Spec.pooled x3 x4 x5 x6 x7 x8 x9 x1 x17) x2 x10 x11 b j := by
  have hl : ∀ k : Fin 144, lidx_main_v87 (ix2 b j) k = ix2 b k := fun k =>
    funext fun a => Fin.ext (by match a with | ⟨0, _⟩ => rfl | ⟨1, _⟩ => rfl)
  have hr : ∀ k : Fin 144, ridx_main_v87 (ix2 b j) k = ix2 k j := fun k =>
    funext fun a => Fin.ext (by match a with | ⟨0, _⟩ => rfl | ⟨1, _⟩ => rfl)
  have hbias : idx_main_v88 (idx_main_v89 (ix2 b j)) = ix1 j :=
    funext fun a => Fin.ext (by match a with | ⟨0, _⟩ => rfl)
  have hb0 : ∀ k : Fin 64, val_main_v42 (F := Ideal) x0 x3 x4 x5 x6 x7 x8 x9 x16 (ix2 b k)
      = Spec.pooled x3 x4 x5 x6 x7 x8 x9 x0 x16 b k := fun k => ref_branch0 x0 x3 x4 x5 x6 x7 x8 x9 x16 (ix2 b k)
  have hb1 : ∀ k : Fin 64, val_main_v85 (F := Ideal) x1 x3 x4 x5 x6 x7 x8 x9 x17 (ix2 b k)
      = Spec.pooled x3 x4 x5 x6 x7 x8 x9 x1 x17 b k := fun k => ref_branch1 x1 x3 x4 x5 x6 x7 x8 x9 x17 (ix2 b k)
  rw [val_main_v91_apply, val_main_v90_apply, val_main_v87_apply, val_main_v89_apply, val_main_v88_apply,
    val_main_call4_v0_apply, val_main_call4_cst_apply]
  simp only [Ideal.addf_def, Ideal.maximumf_def, Ideal.ofBits_def, hl, hr, hbias]
  rw [sum_cut_144]
  unfold val_main_v86
  simp only [join_first, join_second, join_third, hb0, hb1]
  rfl

theorem ref_cls2 (b : Fin 1024) (j : Fin 128) :
    val_main_v96 (F := Ideal) x0 x1 x2 x3 x4 x5 x6 x7 x8 x9 x10 x11 x12 x13 x16 x17 (ix2 b j)
      = Spec.cls2 (Spec.pooled x3 x4 x5 x6 x7 x8 x9 x0 x16) (Spec.pooled x3 x4 x5 x6 x7 x8 x9 x1 x17) x2 x10 x11 x12 x13 b j := by
  have hl : ∀ k : Fin 128, lidx_main_v92 (ix2 b j) k = ix2 b k := fun k =>
    funext fun a => Fin.ext (by match a with | ⟨0, _⟩ => rfl | ⟨1, _⟩ => rfl)
  have hr : ∀ k : Fin 128, ridx_main_v92 (ix2 b j) k = ix2 k j := fun k =>
    funext fun a => Fin.ext (by match a with | ⟨0, _⟩ => rfl | ⟨1, _⟩ => rfl)
  have hbias : idx_main_v93 (idx_main_v94 (ix2 b j)) = ix1 j :=
    funext fun a => Fin.ext (by match a with | ⟨0, _⟩ => rfl)
  rw [val_main_v96_apply, val_main_v95_apply, val_main_v92_apply, val_main_v94_apply, val_main_v93_apply,
    val_main_call5_v0_apply, val_main_call5_cst_apply]
  simp only [Ideal.addf_def, Ideal.maximumf_def, Ideal.ofBits_def, hl, hr, hbias, ref_cls1]
  rfl

theorem ref_cls3 (b : Fin 1024) (j : Fin 10) :
    val_main_v100 (F := Ideal) x0 x1 x2 x3 x4 x5 x6 x7 x8 x9 x10 x11 x12 x13 x14 x15 x16 x17 (ix2 b j)
      = Spec.cls3 (Spec.pooled x3 x4 x5 x6 x7 x8 x9 x0 x16) (Spec.pooled x3 x4 x5 x6 x7 x8 x9 x1 x17) x2 x10 x11 x12 x13 x14 x15 b j := by
  have hl : ∀ k : Fin 128, lidx_main_v97 (ix2 b j) k = ix2 b k := fun k =>
    funext fun a => Fin.ext (by match a with | ⟨0, _⟩ => rfl | ⟨1, _⟩ => rfl)
  have hr : ∀ k : Fin 128, ridx_main_v97 (ix2 b j) k = ix2 k j := fun k =>
    funext fun a => Fin.ext (by match a with | ⟨0, _⟩ => rfl | ⟨1, _⟩ => rfl)
  have hbias : idx_main_v98 (idx_main_v99 (ix2 b j)) = ix1 j :=
    funext fun a => Fin.ext (by match a with | ⟨0, _⟩ => rfl)
  rw [val_main_v100_apply, val_main_v97_apply, val_main_v99_apply, val_main_v98_apply]
  simp only [Ideal.addf_def, hl, hr, hbias, ref_cls2]
  rfl

end Layers

theorem ref_result (x0 x1 : (⟨S524288x2, .f32⟩ : BufTy).Contents (Elt Ideal)) (x2 : (⟨S1024x16, .f32⟩ : BufTy).Contents (Elt Ideal))
    (x3 : (⟨S64x2, .f32⟩ : BufTy).Contents (Elt Ideal)) (x4 : (⟨S2x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x1, .f32⟩ : BufTy).Contents (Elt Ideal))
    (x9 : (⟨S1, .f32⟩ : BufTy).Contents (Elt Ideal)) (x10 : (⟨S144x128, .f32⟩ : BufTy).Contents (Elt Ideal))
    (x11 : (⟨S128, .f32⟩ : BufTy).Contents (Elt Ideal)) (x12 : (⟨S128x128, .f32⟩ : BufTy).Contents (Elt Ideal))
    (x13 : (⟨S128, .f32⟩ : BufTy).Contents (Elt Ideal)) (x14 : (⟨S128x10, .f32⟩ : BufTy).Contents (Elt Ideal))
    (x15 : (⟨S10, .f32⟩ : BufTy).Contents (Elt Ideal)) (x16 x17 : (⟨S524288, .i32⟩ : BufTy).Contents (Elt Ideal)) :
    val_main_v100 (F := Ideal) x0 x1 x2 x3 x4 x5 x6 x7 x8 x9 x10 x11 x12 x13 x14 x15 x16 x17
      = Spec.result x0 x1 x2 x3 x4 x5 x6 x7 x8 x9 x10 x11 x12 x13 x14 x15 x16 x17 := by
  funext i
  obtain ⟨b, j, rfl⟩ : ∃ b j, i = ix2 b j := ⟨i 0, i 1, eq_ix2 i⟩
  exact ref_cls3 x0 x1 x2 x3 x4 x5 x6 x7 x8 x9 x10 x11 x12 x13 x14 x15 x16 x17 b j

end Cert.ReferenceIdeal.Val

end
-- ==== Proof.LibDot.lean ====
import Idealize.ShloMosaic.Lib.ValueIdx
import Idealize.ShloMosaic.Lib.Pipeline.Value
import Idealize.ShloMosaic.PureOps.Ideal.Laws

noncomputable section

namespace Cert.LibDot

open Idealize.ShloMosaic Idealize.ShloMosaic.ValueIdx
open Finset BigOperators

/-- A product of two rank-2 arrays contracted over the left's axis 1 and the right's axis 0, accumulated into zero, is at
    `(r, q)` the sum over `j` of `A (r, j) * B (j, q)`: the contraction index is its one coordinate, and each operand
    is read at the output's free coordinate beside it. -/
theorem matmul2_apply {m k n : ℕ} {φ₁ φ₂ : FTy} (D : DotDims (⟨2, ![m, k]⟩ : Shape) ⟨2, ![k, n]⟩ ⟨2, ![m, n]⟩)
    (hr : D.contr.rank = 1) (hs : D.contr.size ⟨0, by omega⟩ = k)
    (hlc : D.lhsContracting = [1]) (hrc : D.rhsContracting = [0])
    (hl : ∀ i c, (D.lhsIdx i c 0).val = (i 0).val) (hrf : ∀ i c, (D.rhsIdx i c 1).val = (i 1).val)
    (A : FVec Ideal ⟨2, ![m, k]⟩ φ₁) (B : FVec Ideal ⟨2, ![k, n]⟩ φ₂) (r : Fin m) (q : Fin n) :
    matmul D none A B (constant (F := Ideal) ⟨2, ![m, n]⟩ .f32 0x00000000#32) (ix2 r q)
      = ∑ j : Fin k, A (ix2 r j) * B (ix2 j q) := by
  simp only [matmul]
  rw [Ideal.matmul_constant_zero_apply, ← Equiv.sum_comp (contrEquiv1 D k hr hs).symm]
  refine Finset.sum_congr rfl fun j _ => ?_
  have hj := contrEquiv1_symm_val D k hr hs j
  rw [show D.lhsIdx (ix2 r q) ((contrEquiv1 D k hr hs).symm j) = ix2 r j from
      Shape.idx_ext₂ (hl _ _) ((D.lhsIdx_val_of_single hlc _ _).trans hj),
    show D.rhsIdx (ix2 r q) ((contrEquiv1 D k hr hs).symm j) = ix2 j q from
      Shape.idx_ext₂ ((D.rhsIdx_val_of_single hrc _ _).trans hj) (hrf _ _)]

end Cert.LibDot

end
-- ==== Proof.Val.StepLib.lean ====
import proofs.«421210_j62689342652499_1_alg».proof.Proof.Val.Spec
import proofs.«421210_j62689342652499_1_alg».proof.Proof.Gen.KernelIdeal.Skeleton
import proofs.«421210_j62689342652499_1_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen Cert.LibDot

theorem dotPoint_lhs_free (i : S2048x64.Idx) (c : dot_S2048x2_S2x64_S2048x64_1_0_0_1_n_n.contr.Idx) :
    (dot_S2048x2_S2x64_S2048x64_1_0_0_1_n_n.lhsIdx i c 0).val = (i 0).val := by
  unfold DotDims.lhsIdx
  rw [dif_neg (show ¬(0 : Fin S2048x2.rank) ∈ dot_S2048x2_S2x64_S2048x64_1_0_0_1_n_n.lhsBatch by decide), dif_pos (show (0 : Fin S2048x2.rank) ∈ dot_S2048x2_S2x64_S2048x64_1_0_0_1_n_n.lhsNonContracting by decide)]
  rfl
theorem dotPoint_rhs_free (i : S2048x64.Idx) (c : dot_S2048x2_S2x64_S2048x64_1_0_0_1_n_n.contr.Idx) :
    (dot_S2048x2_S2x64_S2048x64_1_0_0_1_n_n.rhsIdx i c 1).val = (i 1).val := by
  unfold DotDims.rhsIdx
  rw [dif_neg (show ¬(1 : Fin S2x64.rank) ∈ dot_S2048x2_S2x64_S2048x64_1_0_0_1_n_n.rhsBatch by decide), dif_pos (show (1 : Fin S2x64.rank) ∈ dot_S2048x2_S2x64_S2048x64_1_0_0_1_n_n.rhsNonContracting by decide)]
  rfl

theorem dotPoint_apply {φ₁ φ₂ : FTy} (A : FVec Ideal S2048x2 φ₁) (B : FVec Ideal S2x64 φ₂) (r : Fin 2048) (q : Fin 64) :
    matmul dot_S2048x2_S2x64_S2048x64_1_0_0_1_n_n none A B (constant (F := Ideal) S2048x64 .f32 0x00000000#32) (ix2 r q)
      = ∑ k : Fin 2, A (ix2 r k) * B (ix2 k q) :=
  matmul2_apply _ rfl rfl rfl rfl dotPoint_lhs_free dotPoint_rhs_free A B r q

theorem dotHidden_lhs_free (i : S2048x64.Idx) (c : dot_S2048x64_S64x64_S2048x64_1_0_0_1_n_n.contr.Idx) :
    (dot_S2048x64_S64x64_S2048x64_1_0_0_1_n_n.lhsIdx i c 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem dotHidden_rhs_free (i : S2048x64.Idx) (c : dot_S2048x64_S64x64_S2048x64_1_0_0_1_n_n.contr.Idx) :
    (dot_S2048x64_S64x64_S2048x64_1_0_0_1_n_n.rhsIdx i c 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

theorem dotHidden_apply {φ₁ φ₂ : FTy} (A : FVec Ideal S2048x64 φ₁) (B : FVec Ideal S64x64 φ₂) (r : Fin 2048) (q : Fin 64) :
    matmul dot_S2048x64_S64x64_S2048x64_1_0_0_1_n_n none A B (constant (F := Ideal) S2048x64 .f32 0x00000000#32) (ix2 r q)
      = ∑ k : Fin 64, A (ix2 r k) * B (ix2 k q) :=
  matmul2_apply _ rfl rfl rfl rfl dotHidden_lhs_free dotHidden_rhs_free A B r q

theorem dotOut_lhs_free (i : S2048x1.Idx) (c : dot_S2048x64_S64x1_S2048x1_1_0_0_1_n_n.contr.Idx) :
    (dot_S2048x64_S64x1_S2048x1_1_0_0_1_n_n.lhsIdx i c 0).val = (i 0).val := by
  unfold DotDims.lhsIdx
  rw [dif_neg (show ¬(0 : Fin S2048x64.rank) ∈ dot_S2048x64_S64x1_S2048x1_1_0_0_1_n_n.lhsBatch by decide), dif_pos (show (0 : Fin S2048x64.rank) ∈ dot_S2048x64_S64x1_S2048x1_1_0_0_1_n_n.lhsNonContracting by decide)]
  rfl
theorem dotOut_rhs_free (i : S2048x1.Idx) (c : dot_S2048x64_S64x1_S2048x1_1_0_0_1_n_n.contr.Idx) :
    (dot_S2048x64_S64x1_S2048x1_1_0_0_1_n_n.rhsIdx i c 1).val = (i 1).val := by
  unfold DotDims.rhsIdx
  rw [dif_neg (show ¬(1 : Fin S64x1.rank) ∈ dot_S2048x64_S64x1_S2048x1_1_0_0_1_n_n.rhsBatch by decide), dif_pos (show (1 : Fin S64x1.rank) ∈ dot_S2048x64_S64x1_S2048x1_1_0_0_1_n_n.rhsNonContracting by decide)]
  rfl

theorem dotOut_apply {φ₁ φ₂ : FTy} (A : FVec Ideal S2048x64 φ₁) (B : FVec Ideal S64x1 φ₂) (r : Fin 2048) (q : Fin 1) :
    matmul dot_S2048x64_S64x1_S2048x1_1_0_0_1_n_n none A B (constant (F := Ideal) S2048x1 .f32 0x00000000#32) (ix2 r q)
      = ∑ k : Fin 64, A (ix2 r k) * B (ix2 k q) :=
  matmul2_apply _ rfl rfl rfl rfl dotOut_lhs_free dotOut_rhs_free A B r q

theorem dotPool_lhs_free (i : S1024x64.Idx) (c : dot_S2048x1024_S2048x64_S1024x64_0_0_1_1_n_n.contr.Idx) :
    (dot_S2048x1024_S2048x64_S1024x64_0_0_1_1_n_n.lhsIdx i c 1).val = (i 0).val := by
  unfold DotDims.lhsIdx
  rw [dif_neg (show ¬(1 : Fin S2048x1024.rank) ∈ dot_S2048x1024_S2048x64_S1024x64_0_0_1_1_n_n.lhsBatch by decide), dif_pos (show (1 : Fin S2048x1024.rank) ∈ dot_S2048x1024_S2048x64_S1024x64_0_0_1_1_n_n.lhsNonContracting by decide)]
  rfl
theorem dotPool_lhs_sum (i : S1024x64.Idx) (c : dot_S2048x1024_S2048x64_S1024x64_0_0_1_1_n_n.contr.Idx) :
    (dot_S2048x1024_S2048x64_S1024x64_0_0_1_1_n_n.lhsIdx i c 0).val = (c ⟨0, by decide⟩).val :=
  dot_S2048x1024_S2048x64_S1024x64_0_0_1_1_n_n.lhsIdx_val_of_single rfl i c
theorem dotPool_rhs_sum (i : S1024x64.Idx) (c : dot_S2048x1024_S2048x64_S1024x64_0_0_1_1_n_n.contr.Idx) :
    (dot_S2048x1024_S2048x64_S1024x64_0_0_1_1_n_n.rhsIdx i c 0).val = (c ⟨0, by decide⟩).val :=
  dot_S2048x1024_S2048x64_S1024x64_0_0_1_1_n_n.rhsIdx_val_of_single rfl i c
theorem dotPool_rhs_free (i : S1024x64.Idx) (c : dot_S2048x1024_S2048x64_S1024x64_0_0_1_1_n_n.contr.Idx) :
    (dot_S2048x1024_S2048x64_S1024x64_0_0_1_1_n_n.rhsIdx i c 1).val = (i 1).val := by
  unfold DotDims.rhsIdx
  rw [dif_neg (show ¬(1 : Fin S2048x64.rank) ∈ dot_S2048x1024_S2048x64_S1024x64_0_0_1_1_n_n.rhsBatch by decide), dif_pos (show (1 : Fin S2048x64.rank) ∈ dot_S2048x1024_S2048x64_S1024x64_0_0_1_1_n_n.rhsNonContracting by decide)]
  rfl

theorem dotPool_apply {φ₁ φ₂ : FTy} (A : FVec Ideal S2048x1024 φ₁) (B : FVec Ideal S2048x64 φ₂) (r : Fin 1024) (q : Fin 64) :
    matmul dot_S2048x1024_S2048x64_S1024x64_0_0_1_1_n_n none A B (constant (F := Ideal) S1024x64 .f32 0x00000000#32) (ix2 r q)
      = ∑ k : Fin 2048, A (ix2 k r) * B (ix2 k q) := by
  simp only [matmul]
  rw [Ideal.matmul_constant_zero_apply, ← Equiv.sum_comp (contrEquiv1 dot_S2048x1024_S2048x64_S1024x64_0_0_1_1_n_n 2048 rfl rfl).symm]
  refine Finset.sum_congr rfl fun k _ => ?_
  have hk := contrEquiv1_symm_val dot_S2048x1024_S2048x64_S1024x64_0_0_1_1_n_n 2048 rfl rfl k
  have el : dot_S2048x1024_S2048x64_S1024x64_0_0_1_1_n_n.lhsIdx (ix2 r q) ((contrEquiv1 dot_S2048x1024_S2048x64_S1024x64_0_0_1_1_n_n 2048 rfl rfl).symm k) = ix2 k r := funext fun a => Fin.ext (by
    match a with
    | ⟨1, _⟩ => exact dotPool_lhs_free _ _
    | ⟨0, _⟩ => exact (dotPool_lhs_sum _ _).trans hk)
  have er : dot_S2048x1024_S2048x64_S1024x64_0_0_1_1_n_n.rhsIdx (ix2 r q) ((contrEquiv1 dot_S2048x1024_S2048x64_S1024x64_0_0_1_1_n_n 2048 rfl rfl).symm k) = ix2 k q := funext fun a => Fin.ext (by
    match a with
    | ⟨0, _⟩ => exact (dotPool_rhs_sum _ _).trans hk
    | ⟨1, _⟩ => exact dotPool_rhs_free _ _)
  rw [el, er]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem sumAlongRow_apply {n m : ℕ} {φ : FTy} (v : FVec Ideal ⟨2, ![n, m]⟩ φ) (acc : BitVec φ.bits)
    (h : Shape.Reduces ⟨2, ![n, m]⟩ [1] ⟨1, ![n]⟩) (hφ : FKind.Formats φ) (hacc : acc = FKind.add.neutral φ hφ) (r : Fin n) :
    multiReduction (F := Ideal) .add [1] ⟨1, ![n]⟩ v acc h hφ hacc (ix1 r) = ∑ k : Fin m, v (ix2 r k) := by
  refine (Ideal.multiReduction_add_single v acc h hφ hacc (ix1 r)).trans ?_
  exact Finset.sum_congr rfl fun k _ => congrArg v (funext fun a => Fin.ext (by
    match a with
    | ⟨0, _⟩ => rfl
    | ⟨1, _⟩ => rfl))

theorem iotaCols_apply {n m : ℕ} (h : Shape.Iotas (⟨2, ![n, m]⟩ : Shape) .tc 32 [1]) (r : Fin n) (b : Fin m) :
    iota .tc (⟨2, ![n, m]⟩ : Shape) 32 [1] h (ix2 r b) = BitVec.ofNat 32 b.val :=
  iota_single_apply .tc _ 32 1 h (ix2 r b)

end Cert.KernelIdeal.Val

end
-- ==== Proof.Val.Step.lean ====
import proofs.«421210_j62689342652499_1_alg».proof.Proof.Val.Spec
import proofs.«421210_j62689342652499_1_alg».proof.Proof.Gen.KernelIdeal.Skeleton
import proofs.«421210_j62689342652499_1_alg».proof.Proof.Val.StepLib
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen

def rowOf {n : Nat} (b : (⟨2, ![1, n]⟩ : Shape).Idx → EReal) : (⟨1, ![n]⟩ : Shape).Idx → EReal :=
  fun j => b (ix2 (0 : Fin 1) (j 0))

def colOf {n : Nat} (t : (⟨2, ![n, 1]⟩ : Shape).Idx → BitVec 32) : (⟨1, ![n]⟩ : Shape).Idx → BitVec 32 :=
  fun j => t (ix2 (j 0) (0 : Fin 1))

theorem sqNormPoints_apply (x : FVec Ideal S2048x2 .f32) (h1 : S2048x2.Reduces [1] S2048) (hφ : FKind.Formats .f32)
    (hacc : (0x00000000#32 : BitVec 32) = FKind.add.neutral .f32 hφ) (h2 : S2048.ShapeCasts S2048x1)
    (h3 : S2048x1.Broadcasts S2048x64) (r : Fin 2048) (q : Fin 64) :
    broadcastTo S2048x64 (shapeCast S2048x1 (multiReduction (F := Ideal) .add [1] S2048 (mulf x x) 0x00000000#32 h1 hφ hacc) h2) h3 (ix2 r q)
      = ∑ k : Fin 2, x (ix2 r k) * x (ix2 r k) := by
  refine (broadcastTo_a1_ab_apply _ h3 r q).trans ?_
  refine (shapeCast_a_a1_apply _ h2 r 0).trans ?_
  exact sumAlongRow_apply (mulf x x) _ h1 hφ hacc r

theorem sqNormCentres_apply (theta : FVec Ideal S64x2 .f32) (h1 : S64x2.Reduces [1] S64) (hφ : FKind.Formats .f32)
    (hacc : (0x00000000#32 : BitVec 32) = FKind.add.neutral .f32 hφ) (h2 : S64.ShapeCasts S1x64)
    (h3 : S1x64.Broadcasts S2048x64) (r : Fin 2048) (q : Fin 64) :
    broadcastTo S2048x64 (shapeCast S1x64 (multiReduction (F := Ideal) .add [1] S64 (mulf theta theta) 0x00000000#32 h1 hφ hacc) h2) h3 (ix2 r q)
      = ∑ k : Fin 2, theta (ix2 q k) * theta (ix2 q k) := by
  refine (broadcastTo_1b_ab_apply _ h3 r q).trans ?_
  refine (shapeCast_a_1a_apply _ h2 0 q).trans ?_
  exact sumAlongRow_apply (mulf theta theta) _ h1 hφ hacc q

theorem innerPointsCentres_apply (x : FVec Ideal S2048x2 .f32) (theta : FVec Ideal S64x2 .f32)
    (h : S64x2.Transposes [1, 0] S2x64) (r : Fin 2048) (q : Fin 64) :
    matmul dot_S2048x2_S2x64_S2048x64_1_0_0_1_n_n none x (transpose S2x64 [1, 0] theta h)
        (constant (F := Ideal) S2048x64 .f32 0x00000000#32) (ix2 r q)
      = ∑ k : Fin 2, x (ix2 r k) * theta (ix2 q k) := by
  refine (dotPoint_apply x _ r q).trans ?_
  exact Finset.sum_congr rfl fun k _ => congrArg (x (ix2 r k) * ·) (transpose_ix2_apply theta h k q)

theorem pay4_apply (x : FVec Ideal S2048x2 .f32) (theta : FVec Ideal S64x2 .f32) (r : Fin 2048) (q : Fin 64) :
    k0_pay4 (F := Ideal) x theta (ix2 r q) = Spec.gauss theta (fun k => x (ix2 r k)) q := by
  have e : k0_pay4 (F := Ideal) x theta (ix2 r q)
      = Ideal.exp (Ideal.div (Spec.zero -
          ((broadcastTo S2048x64 (shapeCast S2048x1 (multiReduction (F := Ideal) .add [1] S2048 (mulf x x) 0x00000000#32
                reduces_S2048x2_S2048 (.inl rfl) rfl) shapeCasts_S2048_S2048x1) broadcasts_S2048x1_S2048x64 (ix2 r q)
            + broadcastTo S2048x64 (shapeCast S1x64 (multiReduction (F := Ideal) .add [1] S64 (mulf theta theta) 0x00000000#32
                reduces_S64x2_S64 (.inl rfl) rfl) shapeCasts_S64_S1x64) broadcasts_S1x64_S2048x64 (ix2 r q))
           - Spec.two * matmul dot_S2048x2_S2x64_S2048x64_1_0_0_1_n_n none x (transpose S2x64 [1, 0] theta transposes_S64x2_p1_0_S2x64)
                (constant (F := Ideal) S2048x64 .f32 0x00000000#32) (ix2 r q))) Spec.twoSigmaSq) := rfl
  have hA := sqNormPoints_apply x reduces_S2048x2_S2048 (.inl rfl) rfl shapeCasts_S2048_S2048x1 broadcasts_S2048x1_S2048x64 r q
  have hB := sqNormCentres_apply theta reduces_S64x2_S64 (.inl rfl) rfl shapeCasts_S64_S1x64 broadcasts_S1x64_S2048x64 r q
  have hC := innerPointsCentres_apply x theta transposes_S64x2_p1_0_S2x64 r q
  exact e.trans (congrArg₂ (fun a c => Ideal.exp (Ideal.div (Spec.zero - (a - Spec.two * c)) Spec.twoSigmaSq))
    (congrArg₂ (· + ·) hA hB) hC)

theorem biasRows_apply (b : FVec Ideal S1x64 .f32) (h1 : S1x64.ShapeCasts S1x64) (h2 : S1x64.Broadcasts S2048x64)
    (r : Fin 2048) (j : Fin 64) :
    broadcastTo S2048x64 (shapeCast S1x64 b h1) h2 (ix2 r j) = rowOf b (ix1 j) := by
  rw [shapeCast_self]
  exact broadcastTo_1b_ab_apply b h2 r j

theorem pay5_apply (x : FVec Ideal S2048x2 .f32) (Ww0 : FVec Ideal S2x64 .f32) (b0 : FVec Ideal S1x64 .f32) (r : Fin 2048) (j : Fin 64) :
    k0_pay5 (F := Ideal) x Ww0 b0 (ix2 r j) = Spec.hid1 Ww0 (rowOf b0) (fun k => x (ix2 r k)) j := by
  have e : k0_pay5 (F := Ideal) x Ww0 b0 (ix2 r j)
      = max (matmul dot_S2048x2_S2x64_S2048x64_1_0_0_1_n_n none x Ww0 (constant (F := Ideal) S2048x64 .f32 0x00000000#32) (ix2 r j)
          + broadcastTo S2048x64 (shapeCast S1x64 b0 shapeCasts_S1x64_S1x64) broadcasts_S1x64_S2048x64 (ix2 r j)) Spec.zero := rfl
  rw [e, dotPoint_apply, biasRows_apply]
  rfl

def layer2 (h1 : FVec Ideal S2048x64 .f32) (Ww1 : FVec Ideal S64x64 .f32) (b1 : FVec Ideal S1x64 .f32) : FVec Ideal S2048x64 .f32 :=
  maximumf (addf (matmul dot_S2048x64_S64x64_S2048x64_1_0_0_1_n_n none h1 Ww1 (constant (F := Ideal) S2048x64 .f32 0x00000000#32))
      (broadcastTo S2048x64 (shapeCast S1x64 b1 shapeCasts_S1x64_S1x64) broadcasts_S1x64_S2048x64))
    (broadcast S2048x64 (Scalar.ofBits (F := Ideal) .f32 0x00000000#32))

theorem layer2_apply (h1 : FVec Ideal S2048x64 .f32) (Ww1 : FVec Ideal S64x64 .f32) (b1 : FVec Ideal S1x64 .f32)
    (r : Fin 2048) (j : Fin 64) :
    layer2 h1 Ww1 b1 (ix2 r j) = max ((∑ i : Fin 64, h1 (ix2 r i) * Ww1 (ix2 i j)) + rowOf b1 (ix1 j)) Spec.zero := by
  have e : layer2 h1 Ww1 b1 (ix2 r j)
      = max (matmul dot_S2048x64_S64x64_S2048x64_1_0_0_1_n_n none h1 Ww1 (constant (F := Ideal) S2048x64 .f32 0x00000000#32) (ix2 r j)
          + broadcastTo S2048x64 (shapeCast S1x64 b1 shapeCasts_S1x64_S1x64) broadcasts_S1x64_S2048x64 (ix2 r j)) Spec.zero := rfl
  rw [e, dotHidden_apply, biasRows_apply]

def weightCol (h2 : FVec Ideal S2048x64 .f32) (Wwo : FVec Ideal S64x1 .f32) (bo : FVec Ideal S1x1 .f32) : FVec Ideal S2048x1 .f32 :=
  logistic (addf (matmul dot_S2048x64_S64x1_S2048x1_1_0_0_1_n_n none h2 Wwo (constant (F := Ideal) S2048x1 .f32 0x00000000#32))
    (broadcastTo S2048x1 (shapeCast S1x1 bo shapeCasts_S1x1_S1x1) broadcasts_S1x1_S2048x1))

theorem weightCol_apply (h2 : FVec Ideal S2048x64 .f32) (Wwo : FVec Ideal S64x1 .f32) (bo : FVec Ideal S1x1 .f32) (r : Fin 2048) :
    weightCol h2 Wwo bo (ix2 r (0 : Fin 1))
      = Ideal.logistic ((∑ i : Fin 64, h2 (ix2 r i) * Wwo (ix2 i (0 : Fin 1))) + rowOf bo (ix1 (0 : Fin 1))) := by
  have e : weightCol h2 Wwo bo (ix2 r (0 : Fin 1))
      = Ideal.logistic (matmul dot_S2048x64_S64x1_S2048x1_1_0_0_1_n_n none h2 Wwo (constant (F := Ideal) S2048x1 .f32 0x00000000#32) (ix2 r (0 : Fin 1))
          + broadcastTo S2048x1 (shapeCast S1x1 bo shapeCasts_S1x1_S1x1) broadcasts_S1x1_S2048x1 (ix2 r (0 : Fin 1))) := rfl
  rw [e, dotOut_apply, shapeCast_self]
  exact congrArg (fun t => Ideal.logistic ((∑ i : Fin 64, h2 (ix2 r i) * Wwo (ix2 i (0 : Fin 1))) + t))
    (broadcastTo_1b_ab_apply bo broadcasts_S1x1_S2048x1 r (0 : Fin 1))

def featBlock (w : FVec Ideal S2048x1 .f32) (g : FVec Ideal S2048x64 .f32) : FVec Ideal S2048x64 .bf16 :=
  truncf .bf16 (mulf (broadcastTo S2048x64 w broadcasts_S2048x1_S2048x64) g) bitsLt_bf16_f32

theorem featBlock_apply (w : FVec Ideal S2048x1 .f32) (g : FVec Ideal S2048x64 .f32) (r : Fin 2048) (q : Fin 64) :
    featBlock w g (ix2 r q) = w (ix2 r (0 : Fin 1)) * g (ix2 r q) := by
  have e : featBlock w g (ix2 r q) = broadcastTo S2048x64 w broadcasts_S2048x1_S2048x64 (ix2 r q) * g (ix2 r q) := rfl
  rw [e, broadcastTo_a1_ab_apply]

theorem tagEntry (a c : BitVec 32) :
    (((BitVec.setWidth 32 (IntOp.cmpi .eq a c)).toInt : ℝ) : EReal) = if a = c then 1 else 0 := by
  by_cases h : a = c
  · subst h
    have h1 : IntOp.cmpi .eq a a = 1#1 := by simp [IntOp.cmpi]
    have h2 : (BitVec.setWidth 32 1#1).toInt = 1 := by decide
    rw [h1, if_pos rfl, h2]
    simp
  · have hb : (a == c) = false := beq_eq_false_iff_ne.mpr h
    have h1 : IntOp.cmpi .eq a c = 0#1 := by
      show BitVec.ofBool (a == c) = 0#1
      rw [hb]
      rfl
    have h2 : (BitVec.setWidth 32 0#1).toInt = 0 := by decide
    rw [h1, if_neg h, h2]
    simp

def tagMatrix (ids : IVec S2048x1 32) : FVec Ideal S2048x1024 .bf16 :=
  truncf .bf16 (sitofp (F := Ideal) .f32 (extui 32 (cmpi .eq (broadcastTo S2048x1024 ids broadcasts_S2048x1_S2048x1024)
    (iota .tc S2048x1024 32 [1] iota_S2048x1024_d1_w32)) natLt_1_32)) bitsLt_bf16_f32

theorem tagMatrix_apply (ids : IVec S2048x1 32) (r : Fin 2048) (b : Fin 1024) :
    tagMatrix ids (ix2 r b) = if ids (ix2 r (0 : Fin 1)) = BitVec.ofNat 32 b.val then (1 : EReal) else 0 := by
  have e : tagMatrix ids (ix2 r b)
      = (((BitVec.setWidth 32 (IntOp.cmpi .eq (broadcastTo S2048x1024 ids broadcasts_S2048x1_S2048x1024 (ix2 r b))
          (iota .tc S2048x1024 32 [1] iota_S2048x1024_d1_w32 (ix2 r b)))).toInt : ℝ) : EReal) := rfl
  rw [e, broadcastTo_a1_ab_apply, iotaCols_apply, tagEntry]

theorem pay1_eq (v6 : IVec S2048x1 32) (v25 v33 : FVec Ideal S2048x64 .f32) (v34 : FVec Ideal S64x64 .f32)
    (v36 : FVec Ideal S1x64 .f32) (v42 : FVec Ideal S64x1 .f32) (v44 : FVec Ideal S1x1 .f32) (v59 : FVec Ideal S1024x64 .f32) :
    k0_pay1 (F := Ideal) v6 v25 v33 v34 (constant S2048x64 .f32 0x00000000#32) v36 v42 v44 v59
      = shapeCast S1024x64 (addf v59 (matmul dot_S2048x1024_S2048x64_S1024x64_0_0_1_1_n_n none (tagMatrix v6)
          (featBlock (weightCol (layer2 v33 v34 v36) v42 v44) v25) (constant (F := Ideal) S1024x64 .f32 0x00000000#32)))
        shapeCasts_S1024x64_S1024x64 := rfl

theorem pay3_eq (ids : IVec S2048x1 32) : k0_pay3 (F := Ideal) ids = ids := by
  unfold k0_pay3
  exact shapeCast_self _ _

theorem weightBlock_apply (x : FVec Ideal S2048x2 .f32) (Ww0 : FVec Ideal S2x64 .f32) (b0 : FVec Ideal S1x64 .f32)
    (Ww1 : FVec Ideal S64x64 .f32) (b1 : FVec Ideal S1x64 .f32) (Wwo : FVec Ideal S64x1 .f32) (bo : FVec Ideal S1x1 .f32) (r : Fin 2048) :
    weightCol (layer2 (k0_pay5 (F := Ideal) x Ww0 b0) Ww1 b1) Wwo bo (ix2 r (0 : Fin 1))
      = Spec.weight Ww0 (rowOf b0) Ww1 (rowOf b1) Wwo (rowOf bo) (fun k => x (ix2 r k)) := by
  rw [weightCol_apply]
  refine congrArg (fun t => Ideal.logistic (t + rowOf bo (ix1 (0 : Fin 1)))) (Finset.sum_congr rfl fun i _ => ?_)
  refine congrArg (· * Wwo (ix2 i (0 : Fin 1))) ?_
  rw [layer2_apply]
  refine congrArg (fun t => max (t + rowOf b1 (ix1 i)) Spec.zero) (Finset.sum_congr rfl fun l _ => ?_)
  rw [pay5_apply]

theorem pay1_apply (ids : Vec Ideal S2048x1 .i32) (x : Vec Ideal S2048x2 .f32) (theta : Vec Ideal S64x2 .f32)
    (Ww0 : Vec Ideal S2x64 .f32) (b0 : Vec Ideal S1x64 .f32) (Ww1 : Vec Ideal S64x64 .f32) (b1 : Vec Ideal S1x64 .f32)
    (Wwo : Vec Ideal S64x1 .f32) (bo : Vec Ideal S1x1 .f32) (acc : Vec Ideal S1024x64 .f32) (b : Fin 1024) (q : Fin 64) :
    k0_pay1 (F := Ideal) (k0_pay3 ids) (k0_pay4 x theta) (k0_pay5 x Ww0 b0) Ww1 (constant S2048x64 .f32 0x00000000#32) b1 Wwo bo acc (ix2 b q)
      = acc (ix2 b q) + ∑ r : Fin 2048, (if ids (ix2 r (0 : Fin 1)) = BitVec.ofNat 32 b.val
          then Spec.feat theta Ww0 (rowOf b0) Ww1 (rowOf b1) Wwo (rowOf bo) (fun k => x (ix2 r k)) q else 0) := by
  have e : k0_pay1 (F := Ideal) (k0_pay3 ids) (k0_pay4 x theta) (k0_pay5 x Ww0 b0) Ww1 (constant S2048x64 .f32 0x00000000#32) b1 Wwo bo acc (ix2 b q)
      = acc (ix2 b q) + matmul dot_S2048x1024_S2048x64_S1024x64_0_0_1_1_n_n none (tagMatrix ids)
          (featBlock (weightCol (layer2 (k0_pay5 (F := Ideal) x Ww0 b0) Ww1 b1) Wwo bo) (k0_pay4 (F := Ideal) x theta))
          (constant (F := Ideal) S1024x64 .f32 0x00000000#32) (ix2 b q) := by
    rw [pay1_eq, shapeCast_self, pay3_eq]
    rfl
  rw [e, dotPool_apply]
  refine congrArg (acc (ix2 b q) + ·) (Finset.sum_congr rfl fun r _ => ?_)
  rw [tagMatrix_apply, featBlock_apply, weightBlock_apply, pay4_apply]
  by_cases h : ids (ix2 r (0 : Fin 1)) = BitVec.ofNat 32 b.val
  · rw [if_pos h, if_pos h, one_mul]
    rfl
  · rw [if_neg h, if_neg h, zero_mul]

theorem pay2_apply (i : S1024x64.Idx) : k0_pay2 (F := Ideal) i = 0 := by
  unfold k0_pay2
  rw [shapeCast_self]
  exact Ideal.ofBits_zero_f32

theorem k1_pay1_eq : @k1_pay1 = @k0_pay1 := rfl
theorem k1_pay2_eq : @k1_pay2 = @k0_pay2 := rfl
theorem k1_pay3_eq : @k1_pay3 = @k0_pay3 := rfl
theorem k1_pay4_eq : @k1_pay4 = @k0_pay4 := rfl
theorem k1_pay5_eq : @k1_pay5 = @k0_pay5 := rfl

end Cert.KernelIdeal.Val

end
-- ==== Proof.Val.ClsLayers.lean ====
import proofs.«421210_j62689342652499_1_alg».proof.Proof.Val.Spec
import proofs.«421210_j62689342652499_1_alg».proof.Proof.Gen.KernelIdeal.Skeleton
import proofs.«421210_j62689342652499_1_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val.Cls

open Idealize.ShloMosaic Idealize.ShloMosaic.TcCoe Idealize.ShloMosaic.ValueIdx Idealize.SL.Sem
open Finset BigOperators
open Cert.KernelIdeal Cert.KernelIdeal.Gen Cert.LibDot

theorem lhs_pool_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl

theorem rhs_pool_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

theorem prod_pool_apply (A : FVec Ideal S1024x64 .f32) (B : FVec Ideal S64x128 .f32) (b : Fin 1024) (j : Fin 128) :
    matmul dot_S1024x64_S64x128_S1024x128_1_0_0_1_n_n none A B (constant (F := Ideal) S1024x128 .f32 0x00000000#32) (ix2 b j)
      = ∑ k : Fin 64, A (ix2 b k) * B (ix2 k j) :=
  matmul2_apply _ rfl rfl rfl rfl lhs_pool_0 rhs_pool_1 A B b j

theorem lhs_own_0 (i : S1024x128.Idx) (q : dot_S1024x16_S16x128_S1024x128_1_0_0_1_n_n.contr.Idx) :
    (dot_S1024x16_S16x128_S1024x128_1_0_0_1_n_n.lhsIdx i q 0).val = (i 0).val := by
  unfold DotDims.lhsIdx
  rw [dif_neg (show ¬(0 : Fin S1024x16.rank) ∈ dot_S1024x16_S16x128_S1024x128_1_0_0_1_n_n.lhsBatch by decide), dif_pos (show (0 : Fin S1024x16.rank) ∈ dot_S1024x16_S16x128_S1024x128_1_0_0_1_n_n.lhsNonContracting by decide)]
  rfl

theorem rhs_own_1 (i : S1024x128.Idx) (q : dot_S1024x16_S16x128_S1024x128_1_0_0_1_n_n.contr.Idx) :
    (dot_S1024x16_S16x128_S1024x128_1_0_0_1_n_n.rhsIdx i q 1).val = (i 1).val := by
  unfold DotDims.rhsIdx
  rw [dif_neg (show ¬(1 : Fin S16x128.rank) ∈ dot_S1024x16_S16x128_S1024x128_1_0_0_1_n_n.rhsBatch by decide), dif_pos (show (1 : Fin S16x128.rank) ∈ dot_S1024x16_S16x128_S1024x128_1_0_0_1_n_n.rhsNonContracting by decide)]
  rfl

theorem prod_own_apply (A : FVec Ideal S1024x16 .f32) (B : FVec Ideal S16x128 .f32) (b : Fin 1024) (j : Fin 128) :
    matmul dot_S1024x16_S16x128_S1024x128_1_0_0_1_n_n none A B (constant (F := Ideal) S1024x128 .f32 0x00000000#32) (ix2 b j)
      = ∑ k : Fin 16, A (ix2 b k) * B (ix2 k j) :=
  matmul2_apply _ rfl rfl rfl rfl lhs_own_0 rhs_own_1 A B b j

theorem lhs_hid_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl

theorem rhs_hid_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem prod_hid_apply (A : FVec Ideal S1024x128 .f32) (B : FVec Ideal S128x128 .f32) (b : Fin 1024) (j : Fin 128) :
    matmul dot_S1024x128_S128x128_S1024x128_1_0_0_1_n_n none A B (constant (F := Ideal) S1024x128 .f32 0x00000000#32) (ix2 b j)
      = ∑ k : Fin 128, A (ix2 b k) * B (ix2 k j) :=
  matmul2_apply _ rfl rfl rfl rfl lhs_hid_0 rhs_hid_1 A B b j

theorem lhs_score_0 (i : S1024x10.Idx) (q : dot_S1024x128_S128x10_S1024x10_1_0_0_1_n_n.contr.Idx) :
    (dot_S1024x128_S128x10_S1024x10_1_0_0_1_n_n.lhsIdx i q 0).val = (i 0).val := by
  unfold DotDims.lhsIdx
  rw [dif_neg (show ¬(0 : Fin S1024x128.rank) ∈ dot_S1024x128_S128x10_S1024x10_1_0_0_1_n_n.lhsBatch by decide), dif_pos (show (0 : Fin S1024x128.rank) ∈ dot_S1024x128_S128x10_S1024x10_1_0_0_1_n_n.lhsNonContracting by decide)]
  rfl

theorem rhs_score_1 (i : S1024x10.Idx) (q : dot_S1024x128_S128x10_S1024x10_1_0_0_1_n_n.contr.Idx) :
    (dot_S1024x128_S128x10_S1024x10_1_0_0_1_n_n.rhsIdx i q 1).val = (i 1).val := by
  unfold DotDims.rhsIdx
  rw [dif_neg (show ¬(1 : Fin S128x10.rank) ∈ dot_S1024x128_S128x10_S1024x10_1_0_0_1_n_n.rhsBatch by decide), dif_pos (show (1 : Fin S128x10.rank) ∈ dot_S1024x128_S128x10_S1024x10_1_0_0_1_n_n.rhsNonContracting by decide)]
  rfl

theorem prod_score_apply (A : FVec Ideal S1024x128 .f32) (B : FVec Ideal S128x10 .f32) (b : Fin 1024) (j : Fin 10) :
    matmul dot_S1024x128_S128x10_S1024x10_1_0_0_1_n_n none A B (constant (F := Ideal) S1024x10 .f32 0x00000000#32) (ix2 b j)
      = ∑ k : Fin 128, A (ix2 b k) * B (ix2 k j) :=
  matmul2_apply _ rfl rfl rfl rfl lhs_score_0 rhs_score_1 A B b j

def layer1 (x0 x1 : FVec Ideal S1024x64 .f32) (x2 : FVec Ideal S1024x16 .f32) (x3 x4 : FVec Ideal S64x128 .f32)
    (x5 : FVec Ideal S16x128 .f32) (x6 : FVec Ideal S1x128 .f32) : FVec Ideal S1024x128 .f32 :=
  maximumf
    (addf
      (addf
        (addf
          (matmul dot_S1024x64_S64x128_S1024x128_1_0_0_1_n_n none (shapeCast S1024x64 x0 shapeCasts_S1024x64_S1024x64)
            (shapeCast S64x128 x3 shapeCasts_S64x128_S64x128) (constant S1024x128 .f32 0x00000000#32))
          (matmul dot_S1024x64_S64x128_S1024x128_1_0_0_1_n_n none (shapeCast S1024x64 x1 shapeCasts_S1024x64_S1024x64)
            (shapeCast S64x128 x4 shapeCasts_S64x128_S64x128) (constant S1024x128 .f32 0x00000000#32)))
        (matmul dot_S1024x16_S16x128_S1024x128_1_0_0_1_n_n none x2
          (shapeCast S16x128 x5 shapeCasts_S16x128_S16x128) (constant S1024x128 .f32 0x00000000#32)))
      (broadcastTo S1024x128 (shapeCast S1x128 x6 shapeCasts_S1x128_S1x128) broadcasts_S1x128_S1024x128))
    (broadcast S1024x128 (Scalar.ofBits .f32 0x00000000#32 : Ideal .f32))

def layer2 (h1 : FVec Ideal S1024x128 .f32) (x7 : FVec Ideal S128x128 .f32) (x8 : FVec Ideal S1x128 .f32) :
    FVec Ideal S1024x128 .f32 :=
  maximumf
    (addf
      (matmul dot_S1024x128_S128x128_S1024x128_1_0_0_1_n_n none h1 x7 (constant S1024x128 .f32 0x00000000#32))
      (broadcastTo S1024x128 (shapeCast S1x128 x8 shapeCasts_S1x128_S1x128) broadcasts_S1x128_S1024x128))
    (broadcast S1024x128 (Scalar.ofBits .f32 0x00000000#32 : Ideal .f32))

def layer3 (h2 : FVec Ideal S1024x128 .f32) (x9 : FVec Ideal S128x10 .f32) : FVec Ideal S1024x10 .f32 :=
  matmul dot_S1024x128_S128x10_S1024x10_1_0_0_1_n_n none h2 x9 (constant S1024x10 .f32 0x00000000#32)

theorem pay2_eq (x0 x1 : Vec Ideal S1024x64 .f32) (x2 : Vec Ideal S1024x16 .f32) (x3 x4 : Vec Ideal S64x128 .f32)
    (x5 : Vec Ideal S16x128 .f32) (x6 : Vec Ideal S1x128 .f32) (x7 : Vec Ideal S128x128 .f32) (x8 : Vec Ideal S1x128 .f32)
    (x9 : Vec Ideal S128x10 .f32) :
    k2_pay2 (F := Ideal) x0 x3 x1 x4 x2 x5 x6 x7 x8 x9 = layer3 (layer2 (layer1 x0 x1 x2 x3 x4 x5 x6) x7 x8) x9 := rfl

theorem layer1_apply (x0 x1 : FVec Ideal S1024x64 .f32) (x2 : FVec Ideal S1024x16 .f32) (x3 x4 : FVec Ideal S64x128 .f32)
    (x5 : FVec Ideal S16x128 .f32) (x6 : FVec Ideal S1x128 .f32) (b : Fin 1024) (j : Fin 128) :
    layer1 x0 x1 x2 x3 x4 x5 x6 (ix2 b j)
      = max (((((∑ k : Fin 64, x0 (ix2 b k) * x3 (ix2 k j)) + (∑ k : Fin 64, x1 (ix2 b k) * x4 (ix2 k j)))
          + (∑ k : Fin 16, x2 (ix2 b k) * x5 (ix2 k j))) + x6 (ix2 (0 : Fin 1) j))) Spec.zero := by
  unfold layer1
  rw [shapeCast_self x0, shapeCast_self x1, shapeCast_self x3, shapeCast_self x4, shapeCast_self x5, shapeCast_self x6]
  rw [maximumf_apply, addf_apply, addf_apply, addf_apply, prod_pool_apply, prod_pool_apply, prod_own_apply,
    broadcastTo_1b_ab_apply, broadcast_apply]
  rfl

theorem layer2_apply (h1 : FVec Ideal S1024x128 .f32) (x7 : FVec Ideal S128x128 .f32) (x8 : FVec Ideal S1x128 .f32)
    (b : Fin 1024) (j : Fin 128) :
    layer2 h1 x7 x8 (ix2 b j) = max ((∑ k : Fin 128, h1 (ix2 b k) * x7 (ix2 k j)) + x8 (ix2 (0 : Fin 1) j)) Spec.zero := by
  unfold layer2
  rw [shapeCast_self x8]
  rw [maximumf_apply, addf_apply, prod_hid_apply, broadcastTo_1b_ab_apply, broadcast_apply]
  rfl

theorem layer3_apply (h2 : FVec Ideal S1024x128 .f32) (x9 : FVec Ideal S128x10 .f32) (b : Fin 1024) (j : Fin 10) :
    layer3 h2 x9 (ix2 b j) = ∑ k : Fin 128, h2 (ix2 b k) * x9 (ix2 k j) := by
  unfold layer3
  exact prod_score_apply h2 x9 b j

theorem out_apply (v31 : FVec Ideal S1024x10 .f32) (x10 : Vec Ideal S1x10 .f32) (b : Fin 1024) (j : Fin 10) :
    k2_pay1 (F := Ideal) v31 x10 (ix2 b j) = v31 (ix2 b j) + x10 (ix2 (0 : Fin 1) j) := by
  unfold k2_pay1
  show addf v31 (broadcastTo S1024x10 (shapeCast S1x10 x10 shapeCasts_S1x10_S1x10) broadcasts_S1x10_S1024x10) (ix2 b j) = _
  rw [shapeCast_self x10, addf_apply, broadcastTo_1b_ab_apply]

end Cert.KernelIdeal.Val.Cls

end
-- ==== Proof.Val.Cls.lean ====
import proofs.«421210_j62689342652499_1_alg».proof.Proof.Val.Spec
import proofs.«421210_j62689342652499_1_alg».proof.Proof.Val.Step
import proofs.«421210_j62689342652499_1_alg».proof.Proof.Val.ClsLayers
import proofs.«421210_j62689342652499_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen

theorem cls1_of_layer1 (x0 x1 : Vec Ideal S1024x64 .f32) (x2 : Vec Ideal S1024x16 .f32) (x3 x4 : Vec Ideal S64x128 .f32)
    (x5 : Vec Ideal S16x128 .f32) (x6 : Vec Ideal S1x128 .f32) (Wr0 : Vec Ideal S144x128 .f32)
    (h3 : ∀ (i : Fin 64) (j : Fin 128), x3 (ix2 i j) = Wr0 (ix2 (⟨i.val, by omega⟩ : Fin 144) j))
    (h4 : ∀ (i : Fin 64) (j : Fin 128), x4 (ix2 i j) = Wr0 (ix2 (⟨64 + i.val, by omega⟩ : Fin 144) j))
    (h5 : ∀ (i : Fin 16) (j : Fin 128), x5 (ix2 i j) = Wr0 (ix2 (⟨128 + i.val, by omega⟩ : Fin 144) j))
    (b : Fin 1024) (j : Fin 128) :
    Cls.layer1 x0 x1 x2 x3 x4 x5 x6 (ix2 b j)
      = Spec.cls1 (fun b i => x0 (ix2 b i)) (fun b i => x1 (ix2 b i)) x2 Wr0 (rowOf x6) b j := by
  rw [Cls.layer1_apply]
  unfold Spec.cls1
  have e3 : (∑ k : Fin 64, x0 (ix2 b k) * x3 (ix2 k j))
      = ∑ i : Fin 64, x0 (ix2 b i) * Wr0 (ix2 (⟨i.val, by omega⟩ : Fin 144) j) :=
    Finset.sum_congr rfl fun k _ => by rw [h3 k j]
  have e4 : (∑ k : Fin 64, x1 (ix2 b k) * x4 (ix2 k j))
      = ∑ i : Fin 64, x1 (ix2 b i) * Wr0 (ix2 (⟨64 + i.val, by omega⟩ : Fin 144) j) :=
    Finset.sum_congr rfl fun k _ => by rw [h4 k j]
  have e5 : (∑ k : Fin 16, x2 (ix2 b k) * x5 (ix2 k j))
      = ∑ i : Fin 16, x2 (ix2 b i) * Wr0 (ix2 (⟨128 + i.val, by omega⟩ : Fin 144) j) :=
    Finset.sum_congr rfl fun k _ => by rw [h5 k j]
  rw [e3, e4, e5]
  rfl

theorem cls2_of_layer2 (x0 x1 : Vec Ideal S1024x64 .f32) (x2 : Vec Ideal S1024x16 .f32) (x3 x4 : Vec Ideal S64x128 .f32)
    (x5 : Vec Ideal S16x128 .f32) (x6 : Vec Ideal S1x128 .f32) (x7 : Vec Ideal S128x128 .f32) (x8 : Vec Ideal S1x128 .f32)
    (Wr0 : Vec Ideal S144x128 .f32)
    (h3 : ∀ (i : Fin 64) (j : Fin 128), x3 (ix2 i j) = Wr0 (ix2 (⟨i.val, by omega⟩ : Fin 144) j))
    (h4 : ∀ (i : Fin 64) (j : Fin 128), x4 (ix2 i j) = Wr0 (ix2 (⟨64 + i.val, by omega⟩ : Fin 144) j))
    (h5 : ∀ (i : Fin 16) (j : Fin 128), x5 (ix2 i j) = Wr0 (ix2 (⟨128 + i.val, by omega⟩ : Fin 144) j))
    (b : Fin 1024) (j : Fin 128) :
    Cls.layer2 (Cls.layer1 x0 x1 x2 x3 x4 x5 x6) x7 x8 (ix2 b j)
      = Spec.cls2 (fun b i => x0 (ix2 b i)) (fun b i => x1 (ix2 b i)) x2 Wr0 (rowOf x6) x7 (rowOf x8) b j := by
  rw [Cls.layer2_apply]
  unfold Spec.cls2
  have e : (∑ k : Fin 128, Cls.layer1 x0 x1 x2 x3 x4 x5 x6 (ix2 b k) * x7 (ix2 k j))
      = ∑ i : Fin 128, Spec.cls1 (fun b i => x0 (ix2 b i)) (fun b i => x1 (ix2 b i)) x2 Wr0 (rowOf x6) b i * x7 (ix2 i j) :=
    Finset.sum_congr rfl fun k _ => by rw [cls1_of_layer1 x0 x1 x2 x3 x4 x5 x6 Wr0 h3 h4 h5 b k]
  rw [e]
  rfl

theorem cls_apply (x0 x1 : Vec Ideal S1024x64 .f32) (x2 : Vec Ideal S1024x16 .f32) (x3 x4 : Vec Ideal S64x128 .f32)
    (x5 : Vec Ideal S16x128 .f32) (x6 : Vec Ideal S1x128 .f32) (x7 : Vec Ideal S128x128 .f32) (x8 : Vec Ideal S1x128 .f32)
    (x9 : Vec Ideal S128x10 .f32) (x10 : Vec Ideal S1x10 .f32) (Wr0 : Vec Ideal S144x128 .f32)
    (h3 : ∀ (i : Fin 64) (j : Fin 128), x3 (ix2 i j) = Wr0 (ix2 (⟨i.val, by omega⟩ : Fin 144) j))
    (h4 : ∀ (i : Fin 64) (j : Fin 128), x4 (ix2 i j) = Wr0 (ix2 (⟨64 + i.val, by omega⟩ : Fin 144) j))
    (h5 : ∀ (i : Fin 16) (j : Fin 128), x5 (ix2 i j) = Wr0 (ix2 (⟨128 + i.val, by omega⟩ : Fin 144) j))
    (b : Fin 1024) (j : Fin 10) :
    k2_pay1 (F := Ideal) (k2_pay2 x0 x3 x1 x4 x2 x5 x6 x7 x8 x9) x10 (ix2 b j)
      = Spec.cls3 (fun b i => x0 (ix2 b i)) (fun b i => x1 (ix2 b i)) x2 Wr0 (rowOf x6) x7 (rowOf x8) x9 (rowOf x10) b j := by
  rw [Cls.out_apply, Cls.pay2_eq, Cls.layer3_apply]
  unfold Spec.cls3
  have e : (∑ k : Fin 128, Cls.layer2 (Cls.layer1 x0 x1 x2 x3 x4 x5 x6) x7 x8 (ix2 b k) * x9 (ix2 k j))
      = ∑ i : Fin 128, Spec.cls2 (fun b i => x0 (ix2 b i)) (fun b i => x1 (ix2 b i)) x2 Wr0 (rowOf x6) x7 (rowOf x8) b i
          * x9 (ix2 i j) :=
    Finset.sum_congr rfl fun k _ => by rw [cls2_of_layer2 x0 x1 x2 x3 x4 x5 x6 x7 x8 Wr0 h3 h4 h5 b k]
  rw [e]
  rfl

end Cert.KernelIdeal.Val

end
-- ==== Proof.Val.PoolReads.lean ====
import proofs.«421210_j62689342652499_1_alg».proof.Proof.Val.Spec
import proofs.«421210_j62689342652499_1_alg».proof.Proof.Val.Step
import proofs.«421210_j62689342652499_1_alg».proof.Proof.KI.B0
import proofs.«421210_j62689342652499_1_alg».proof.Proof.KI.B1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen Cert.KernelIdeal.Hand

variable (V : (c : Dev nD) → (b : Ref sig .tc) → Buf (Elt Ideal) ((c : Thread nD τ).loc b))

abbrev ptsBlk0 (c : Dev nD) (t : Fin cfg0.N) : Vec Ideal S2048x2 .f32 := iblk0 V c 0 t

abbrev tagBlk0 (c : Dev nD) (t : Fin cfg0.N) : Vec Ideal S2048x1 .i32 := iblk0 V c 1 t

abbrev cenBlk0 (c : Dev nD) (t : Fin cfg0.N) : Vec Ideal S64x2 .f32 := iblk0 V c 2 t

abbrev waBlk0 (c : Dev nD) (t : Fin cfg0.N) : Vec Ideal S2x64 .f32 := iblk0 V c 3 t

abbrev baBlk0 (c : Dev nD) (t : Fin cfg0.N) : Vec Ideal S1x64 .f32 := iblk0 V c 4 t

abbrev wbBlk0 (c : Dev nD) (t : Fin cfg0.N) : Vec Ideal S64x64 .f32 := iblk0 V c 5 t

abbrev bbBlk0 (c : Dev nD) (t : Fin cfg0.N) : Vec Ideal S1x64 .f32 := iblk0 V c 6 t

abbrev wcBlk0 (c : Dev nD) (t : Fin cfg0.N) : Vec Ideal S64x1 .f32 := iblk0 V c 7 t

abbrev bcBlk0 (c : Dev nD) (t : Fin cfg0.N) : Vec Ideal S1x1 .f32 := iblk0 V c 8 t

theorem idx0_0 : ∀ t : Fin cfg0.N, win0_0.index t 0 = t.val ∧ win0_0.index t 1 = 0 :=
  (by decide +kernel : ∀ t : Fin grid0.N, win0_0.index t 0 = t.val ∧ win0_0.index t 1 = 0)

theorem idx0_1 : ∀ t : Fin cfg0.N, win0_1.index t 0 = t.val ∧ win0_1.index t 1 = 0 :=
  (by decide +kernel : ∀ t : Fin grid0.N, win0_1.index t 0 = t.val ∧ win0_1.index t 1 = 0)

theorem idx0_2 : ∀ (t : Fin cfg0.N) (a : Fin 2), win0_2.index t a = 0 :=
  (by decide +kernel : ∀ (t : Fin grid0.N) (a : Fin 2), _)

theorem idx0_3 : ∀ (t : Fin cfg0.N) (a : Fin 2), win0_3.index t a = 0 :=
  (by decide +kernel : ∀ (t : Fin grid0.N) (a : Fin 2), _)

theorem idx0_4 : ∀ (t : Fin cfg0.N) (a : Fin 2), win0_4.index t a = 0 :=
  (by decide +kernel : ∀ (t : Fin grid0.N) (a : Fin 2), _)

theorem idx0_5 : ∀ (t : Fin cfg0.N) (a : Fin 2), win0_5.index t a = 0 :=
  (by decide +kernel : ∀ (t : Fin grid0.N) (a : Fin 2), _)

theorem idx0_6 : ∀ (t : Fin cfg0.N) (a : Fin 2), win0_6.index t a = 0 :=
  (by decide +kernel : ∀ (t : Fin grid0.N) (a : Fin 2), _)

theorem idx0_7 : ∀ (t : Fin cfg0.N) (a : Fin 2), win0_7.index t a = 0 :=
  (by decide +kernel : ∀ (t : Fin grid0.N) (a : Fin 2), _)

theorem idx0_8 : ∀ (t : Fin cfg0.N) (a : Fin 2), win0_8.index t a = 0 :=
  (by decide +kernel : ∀ (t : Fin grid0.N) (a : Fin 2), _)

theorem ptsBlk0_apply (c : Dev nD) (t : Fin cfg0.N) (r : Fin 2048) (k : Fin 2) (i : S524288x2.Idx)
    (h0 : (i 0).val = 2048 * t.val + r.val) (h1 : (i 1).val = k.val) :
    ptsBlk0 V c t (ix2 r k) = (V c main_arg0 : S524288x2.Idx → EReal) i := by
  have hi := idx0_0 t
  show iblk0 V c 0 t (ix2 r k) = _
  unfold iblk0
  rw [View.read_apply]
  show V c main_arg0 _ = V c main_arg0 i
  congr 1
  funext a
  apply Fin.ext
  match a with
  | ⟨0, _⟩ => show win0_0.index t 0 * 2048 + 1 * r.val = (i 0).val; rw [hi.1, h0]; omega
  | ⟨1, _⟩ => show win0_0.index t 1 * 2 + 1 * k.val = (i 1).val; rw [hi.2, h1]; omega

theorem tagBlk0_apply (c : Dev nD) (t : Fin cfg0.N) (r : Fin 2048) (k : Fin 1) (i : S524288x1.Idx)
    (h0 : (i 0).val = 2048 * t.val + r.val) (h1 : (i 1).val = k.val) :
    tagBlk0 V c t (ix2 r k) = (V c main_v0 : S524288x1.Idx → BitVec 32) i := by
  have hi := idx0_1 t
  show iblk0 V c 1 t (ix2 r k) = _
  unfold iblk0
  rw [View.read_apply]
  show V c main_v0 _ = V c main_v0 i
  congr 1
  funext a
  apply Fin.ext
  match a with
  | ⟨0, _⟩ => show win0_1.index t 0 * 2048 + 1 * r.val = (i 0).val; rw [hi.1, h0]; omega
  | ⟨1, _⟩ => show win0_1.index t 1 * 1 + 1 * k.val = (i 1).val; rw [hi.2, h1]; omega

theorem cenBlk0_eq (c : Dev nD) (t : Fin cfg0.N) : cenBlk0 V c t = (V c main_arg3 : S64x2.Idx → EReal) :=
  funext fun y => congrArg (V c main_arg3) (funext fun a => Fin.ext (win0_2.rect_emb_val_of_index_zero t a (idx0_2 t a) y))

theorem waBlk0_eq (c : Dev nD) (t : Fin cfg0.N) : waBlk0 V c t = (V c main_arg4 : S2x64.Idx → EReal) :=
  funext fun y => congrArg (V c main_arg4) (funext fun a => Fin.ext (win0_3.rect_emb_val_of_index_zero t a (idx0_3 t a) y))

theorem baBlk0_eq (c : Dev nD) (t : Fin cfg0.N) : baBlk0 V c t = (V c main_v1 : S1x64.Idx → EReal) :=
  funext fun y => congrArg (V c main_v1) (funext fun a => Fin.ext (win0_4.rect_emb_val_of_index_zero t a (idx0_4 t a) y))

theorem wbBlk0_eq (c : Dev nD) (t : Fin cfg0.N) : wbBlk0 V c t = (V c main_arg6 : S64x64.Idx → EReal) :=
  funext fun y => congrArg (V c main_arg6) (funext fun a => Fin.ext (win0_5.rect_emb_val_of_index_zero t a (idx0_5 t a) y))

theorem bbBlk0_eq (c : Dev nD) (t : Fin cfg0.N) : bbBlk0 V c t = (V c main_v2 : S1x64.Idx → EReal) :=
  funext fun y => congrArg (V c main_v2) (funext fun a => Fin.ext (win0_6.rect_emb_val_of_index_zero t a (idx0_6 t a) y))

theorem wcBlk0_eq (c : Dev nD) (t : Fin cfg0.N) : wcBlk0 V c t = (V c main_arg8 : S64x1.Idx → EReal) :=
  funext fun y => congrArg (V c main_arg8) (funext fun a => Fin.ext (win0_7.rect_emb_val_of_index_zero t a (idx0_7 t a) y))

theorem bcBlk0_eq (c : Dev nD) (t : Fin cfg0.N) : bcBlk0 V c t = (V c main_v3 : S1x1.Idx → EReal) :=
  funext fun y => congrArg (V c main_v3) (funext fun a => Fin.ext (win0_8.rect_emb_val_of_index_zero t a (idx0_8 t a) y))

abbrev ptsBlk1 (c : Dev nD) (t : Fin cfg1.N) : Vec Ideal S2048x2 .f32 := iblk1 V c 0 t

abbrev tagBlk1 (c : Dev nD) (t : Fin cfg1.N) : Vec Ideal S2048x1 .i32 := iblk1 V c 1 t

abbrev cenBlk1 (c : Dev nD) (t : Fin cfg1.N) : Vec Ideal S64x2 .f32 := iblk1 V c 2 t

abbrev waBlk1 (c : Dev nD) (t : Fin cfg1.N) : Vec Ideal S2x64 .f32 := iblk1 V c 3 t

abbrev baBlk1 (c : Dev nD) (t : Fin cfg1.N) : Vec Ideal S1x64 .f32 := iblk1 V c 4 t

abbrev wbBlk1 (c : Dev nD) (t : Fin cfg1.N) : Vec Ideal S64x64 .f32 := iblk1 V c 5 t

abbrev bbBlk1 (c : Dev nD) (t : Fin cfg1.N) : Vec Ideal S1x64 .f32 := iblk1 V c 6 t

abbrev wcBlk1 (c : Dev nD) (t : Fin cfg1.N) : Vec Ideal S64x1 .f32 := iblk1 V c 7 t

abbrev bcBlk1 (c : Dev nD) (t : Fin cfg1.N) : Vec Ideal S1x1 .f32 := iblk1 V c 8 t

theorem idx1_0 : ∀ t : Fin cfg1.N, win1_0.index t 0 = t.val ∧ win1_0.index t 1 = 0 :=
  (by decide +kernel : ∀ t : Fin grid1.N, win1_0.index t 0 = t.val ∧ win1_0.index t 1 = 0)

theorem idx1_1 : ∀ t : Fin cfg1.N, win1_1.index t 0 = t.val ∧ win1_1.index t 1 = 0 :=
  (by decide +kernel : ∀ t : Fin grid1.N, win1_1.index t 0 = t.val ∧ win1_1.index t 1 = 0)

theorem idx1_2 : ∀ (t : Fin cfg1.N) (a : Fin 2), win1_2.index t a = 0 :=
  (by decide +kernel : ∀ (t : Fin grid1.N) (a : Fin 2), _)

theorem idx1_3 : ∀ (t : Fin cfg1.N) (a : Fin 2), win1_3.index t a = 0 :=
  (by decide +kernel : ∀ (t : Fin grid1.N) (a : Fin 2), _)

theorem idx1_4 : ∀ (t : Fin cfg1.N) (a : Fin 2), win1_4.index t a = 0 :=
  (by decide +kernel : ∀ (t : Fin grid1.N) (a : Fin 2), _)

theorem idx1_5 : ∀ (t : Fin cfg1.N) (a : Fin 2), win1_5.index t a = 0 :=
  (by decide +kernel : ∀ (t : Fin grid1.N) (a : Fin 2), _)

theorem idx1_6 : ∀ (t : Fin cfg1.N) (a : Fin 2), win1_6.index t a = 0 :=
  (by decide +kernel : ∀ (t : Fin grid1.N) (a : Fin 2), _)

theorem idx1_7 : ∀ (t : Fin cfg1.N) (a : Fin 2), win1_7.index t a = 0 :=
  (by decide +kernel : ∀ (t : Fin grid1.N) (a : Fin 2), _)

theorem idx1_8 : ∀ (t : Fin cfg1.N) (a : Fin 2), win1_8.index t a = 0 :=
  (by decide +kernel : ∀ (t : Fin grid1.N) (a : Fin 2), _)

theorem ptsBlk1_apply (c : Dev nD) (t : Fin cfg1.N) (r : Fin 2048) (k : Fin 2) (i : S524288x2.Idx)
    (h0 : (i 0).val = 2048 * t.val + r.val) (h1 : (i 1).val = k.val) :
    ptsBlk1 V c t (ix2 r k) = (V c main_arg1 : S524288x2.Idx → EReal) i := by
  have hi := idx1_0 t
  show iblk1 V c 0 t (ix2 r k) = _
  unfold iblk1
  rw [View.read_apply]
  show V c main_arg1 _ = V c main_arg1 i
  congr 1
  funext a
  apply Fin.ext
  match a with
  | ⟨0, _⟩ => show win1_0.index t 0 * 2048 + 1 * r.val = (i 0).val; rw [hi.1, h0]; omega
  | ⟨1, _⟩ => show win1_0.index t 1 * 2 + 1 * k.val = (i 1).val; rw [hi.2, h1]; omega

theorem tagBlk1_apply (c : Dev nD) (t : Fin cfg1.N) (r : Fin 2048) (k : Fin 1) (i : S524288x1.Idx)
    (h0 : (i 0).val = 2048 * t.val + r.val) (h1 : (i 1).val = k.val) :
    tagBlk1 V c t (ix2 r k) = (V c main_v5 : S524288x1.Idx → BitVec 32) i := by
  have hi := idx1_1 t
  show iblk1 V c 1 t (ix2 r k) = _
  unfold iblk1
  rw [View.read_apply]
  show V c main_v5 _ = V c main_v5 i
  congr 1
  funext a
  apply Fin.ext
  match a with
  | ⟨0, _⟩ => show win1_1.index t 0 * 2048 + 1 * r.val = (i 0).val; rw [hi.1, h0]; omega
  | ⟨1, _⟩ => show win1_1.index t 1 * 1 + 1 * k.val = (i 1).val; rw [hi.2, h1]; omega

theorem cenBlk1_eq (c : Dev nD) (t : Fin cfg1.N) : cenBlk1 V c t = (V c main_arg3 : S64x2.Idx → EReal) :=
  funext fun y => congrArg (V c main_arg3) (funext fun a => Fin.ext (win1_2.rect_emb_val_of_index_zero t a (idx1_2 t a) y))

theorem waBlk1_eq (c : Dev nD) (t : Fin cfg1.N) : waBlk1 V c t = (V c main_arg4 : S2x64.Idx → EReal) :=
  funext fun y => congrArg (V c main_arg4) (funext fun a => Fin.ext (win1_3.rect_emb_val_of_index_zero t a (idx1_3 t a) y))

theorem baBlk1_eq (c : Dev nD) (t : Fin cfg1.N) : baBlk1 V c t = (V c main_v6 : S1x64.Idx → EReal) :=
  funext fun y => congrArg (V c main_v6) (funext fun a => Fin.ext (win1_4.rect_emb_val_of_index_zero t a (idx1_4 t a) y))

theorem wbBlk1_eq (c : Dev nD) (t : Fin cfg1.N) : wbBlk1 V c t = (V c main_arg6 : S64x64.Idx → EReal) :=
  funext fun y => congrArg (V c main_arg6) (funext fun a => Fin.ext (win1_5.rect_emb_val_of_index_zero t a (idx1_5 t a) y))

theorem bbBlk1_eq (c : Dev nD) (t : Fin cfg1.N) : bbBlk1 V c t = (V c main_v7 : S1x64.Idx → EReal) :=
  funext fun y => congrArg (V c main_v7) (funext fun a => Fin.ext (win1_6.rect_emb_val_of_index_zero t a (idx1_6 t a) y))

theorem wcBlk1_eq (c : Dev nD) (t : Fin cfg1.N) : wcBlk1 V c t = (V c main_arg8 : S64x1.Idx → EReal) :=
  funext fun y => congrArg (V c main_arg8) (funext fun a => Fin.ext (win1_7.rect_emb_val_of_index_zero t a (idx1_7 t a) y))

theorem bcBlk1_eq (c : Dev nD) (t : Fin cfg1.N) : bcBlk1 V c t = (V c main_v8 : S1x1.Idx → EReal) :=
  funext fun y => congrArg (V c main_v8) (funext fun a => Fin.ext (win1_8.rect_emb_val_of_index_zero t a (idx1_8 t a) y))

end Cert.KernelIdeal.Val

end
-- ==== Proof.Val.Pool.lean ====
import proofs.«421210_j62689342652499_1_alg».proof.Proof.Val.Spec
import proofs.«421210_j62689342652499_1_alg».proof.Proof.Val.Step
import proofs.«421210_j62689342652499_1_alg».proof.Proof.KI.B0
import proofs.«421210_j62689342652499_1_alg».proof.Proof.KI.B1
import proofs.«421210_j62689342652499_1_alg».proof.Proof.Val.PoolReads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen Cert.KernelIdeal.Hand

variable (V : (c : Dev nD) → (b : Ref sig .tc) → Buf (Elt Ideal) ((c : Thread nD τ).loc b))

section Rows

variable (theta : S64x2.Idx → EReal) (Ww0 : S2x64.Idx → EReal) (bw0 : S64.Idx → EReal)
  (Ww1 : S64x64.Idx → EReal) (bw1 : S64.Idx → EReal) (Wwo : S64x1.Idx → EReal) (bwo : S1.Idx → EReal)
  (pts : S524288x2.Idx → EReal) (ids : S524288x1.Idx → BitVec 32) (b : Fin 1024) (q : Fin 64)

def rowTerm (r : ℕ) : EReal :=
  if h : r < 524288 then
    (if ids (ix2 (⟨r, h⟩ : Fin 524288) (0 : Fin 1)) = BitVec.ofNat 32 b.val
      then Spec.feat theta Ww0 bw0 Ww1 bw1 Wwo bwo (fun k => pts (ix2 (⟨r, h⟩ : Fin 524288) k)) q else 0)
  else 0

theorem pooled_of_steps (acc : (n : ℕ) → n < 256 → EReal)
    (h0 : ∀ h, acc 0 h = 0 + ∑ j : Fin 2048, rowTerm theta Ww0 bw0 Ww1 bw1 Wwo bwo pts ids b q (2048 * 0 + j.val))
    (hs : ∀ n (h : n + 1 < 256), acc (n + 1) h = acc n (Nat.lt_of_succ_lt h)
      + ∑ j : Fin 2048, rowTerm theta Ww0 bw0 Ww1 bw1 Wwo bwo pts ids b q (2048 * (n + 1) + j.val)) :
    acc 255 (by decide) = Spec.pooled theta Ww0 bw0 Ww1 bw1 Wwo bwo pts (colOf ids) b q := by
  have inv : ∀ n (h : n < 256), acc n h
      = ∑ r ∈ Finset.range (2048 * (n + 1)), rowTerm theta Ww0 bw0 Ww1 bw1 Wwo bwo pts ids b q r := by
    intro n
    induction n with
    | zero =>
      intro h
      rw [h0 h, zero_add, show 2048 * (0 + 1) = 2048 from rfl, Finset.sum_range]
      refine Finset.sum_congr rfl fun j _ => ?_
      rw [Nat.mul_zero, Nat.zero_add]
    | succ n ih =>
      intro h
      rw [hs n h, ih (Nat.lt_of_succ_lt h), show 2048 * (n + 1 + 1) = 2048 * (n + 1) + 2048 from by omega,
        Finset.sum_range_add, Finset.sum_range (n := 2048)]
  rw [inv 255 (by decide), show 2048 * (255 + 1) = 524288 from rfl, Finset.sum_range]
  unfold Spec.pooled
  refine Finset.sum_congr rfl fun r _ => ?_
  unfold rowTerm
  rw [dif_pos r.isLt]
  rfl

end Rows

theorem step0_apply (c : Dev nD) (t : Fin cfg0.N) (acc : Vec Ideal S1024x64 .f32) (b : Fin 1024) (q : Fin 64) :
    step0 V c t acc (ix2 b q) = acc (ix2 b q) + ∑ j : Fin 2048,
      rowTerm (V c main_arg3) (V c main_arg4) (rowOf (V c main_v1)) (V c main_arg6) (rowOf (V c main_v2)) (V c main_arg8) (rowOf (V c main_v3)) (V c main_arg0) (V c main_v0) b q (2048 * t.val + j.val) := by
  have ht : t.val < 256 := t.isLt
  show k0_pay1 (F := Ideal) (k0_pay3 (tagBlk0 V c t)) (k0_pay4 (ptsBlk0 V c t) (cenBlk0 V c t))
      (k0_pay5 (ptsBlk0 V c t) (waBlk0 V c t) (baBlk0 V c t)) (wbBlk0 V c t) (constant S2048x64 .f32 0x00000000#32)
      (bbBlk0 V c t) (wcBlk0 V c t) (bcBlk0 V c t) acc (ix2 b q) = _
  rw [cenBlk0_eq, waBlk0_eq, baBlk0_eq, wbBlk0_eq, bbBlk0_eq, wcBlk0_eq, bcBlk0_eq]
  refine (pay1_apply (tagBlk0 V c t) (ptsBlk0 V c t) (V c main_arg3) (V c main_arg4) (V c main_v1) (V c main_arg6) (V c main_v2)
    (V c main_arg8) (V c main_v3) acc b q).trans ?_
  congr 1
  refine Finset.sum_congr rfl fun j _ => ?_
  have hlt : 2048 * t.val + j.val < 524288 := by omega
  have hp : (fun k => ptsBlk0 V c t (ix2 j k))
      = fun k => (V c main_arg0 : S524288x2.Idx → EReal) (ix2 (⟨2048 * t.val + j.val, hlt⟩ : Fin 524288) k) :=
    funext fun k => ptsBlk0_apply V c t j k _ rfl rfl
  unfold rowTerm
  rw [dif_pos hlt, tagBlk0_apply V c t j 0 (ix2 (⟨2048 * t.val + j.val, hlt⟩ : Fin 524288) (0 : Fin 1)) rfl rfl, hp]

theorem step1_apply (c : Dev nD) (t : Fin cfg1.N) (acc : Vec Ideal S1024x64 .f32) (b : Fin 1024) (q : Fin 64) :
    step1 V c t acc (ix2 b q) = acc (ix2 b q) + ∑ j : Fin 2048,
      rowTerm (V c main_arg3) (V c main_arg4) (rowOf (V c main_v6)) (V c main_arg6) (rowOf (V c main_v7)) (V c main_arg8) (rowOf (V c main_v8)) (V c main_arg1) (V c main_v5) b q (2048 * t.val + j.val) := by
  have ht : t.val < 256 := t.isLt
  show k1_pay1 (F := Ideal) (k1_pay3 (tagBlk1 V c t)) (k1_pay4 (ptsBlk1 V c t) (cenBlk1 V c t))
      (k1_pay5 (ptsBlk1 V c t) (waBlk1 V c t) (baBlk1 V c t)) (wbBlk1 V c t) (constant S2048x64 .f32 0x00000000#32)
      (bbBlk1 V c t) (wcBlk1 V c t) (bcBlk1 V c t) acc (ix2 b q) = _
  rw [k1_pay1_eq, k1_pay3_eq, k1_pay4_eq, k1_pay5_eq]
  rw [cenBlk1_eq, waBlk1_eq, baBlk1_eq, wbBlk1_eq, bbBlk1_eq, wcBlk1_eq, bcBlk1_eq]
  refine (pay1_apply (tagBlk1 V c t) (ptsBlk1 V c t) (V c main_arg3) (V c main_arg4) (V c main_v6) (V c main_arg6) (V c main_v7)
    (V c main_arg8) (V c main_v8) acc b q).trans ?_
  congr 1
  refine Finset.sum_congr rfl fun j _ => ?_
  have hlt : 2048 * t.val + j.val < 524288 := by omega
  have hp : (fun k => ptsBlk1 V c t (ix2 j k))
      = fun k => (V c main_arg1 : S524288x2.Idx → EReal) (ix2 (⟨2048 * t.val + j.val, hlt⟩ : Fin 524288) k) :=
    funext fun k => ptsBlk1_apply V c t j k _ rfl rfl
  unfold rowTerm
  rw [dif_pos hlt, tagBlk1_apply V c t j 0 (ix2 (⟨2048 * t.val + j.val, hlt⟩ : Fin 524288) (0 : Fin 1)) rfl rfl, hp]

theorem accAt0_apply (c : Dev nD) (b : Fin 1024) (q : Fin 64) :
    accAt0 V c 255 (by decide) (ix2 b q)
      = Spec.pooled (V c main_arg3) (V c main_arg4) (rowOf (V c main_v1)) (V c main_arg6) (rowOf (V c main_v2)) (V c main_arg8)
          (rowOf (V c main_v3)) (V c main_arg0) (colOf (V c main_v0)) b q := by
  refine pooled_of_steps (V c main_arg3) (V c main_arg4) (rowOf (V c main_v1)) (V c main_arg6) (rowOf (V c main_v2)) (V c main_arg8)
    (rowOf (V c main_v3)) (V c main_arg0) (V c main_v0) b q (fun n h => accAt0 V c n h (ix2 b q)) ?_ ?_
  · intro h
    refine ((congrFun (accAt0_zero V c h) (ix2 b q)).trans (step0_apply V c ⟨0, h⟩ _ b q)).trans ?_
    rw [pay2_apply]
  · intro n h
    exact (congrFun (accAt0_succ V c n h) (ix2 b q)).trans (step0_apply V c ⟨n + 1, h⟩ _ b q)

theorem accAt1_apply (c : Dev nD) (b : Fin 1024) (q : Fin 64) :
    accAt1 V c 255 (by decide) (ix2 b q)
      = Spec.pooled (V c main_arg3) (V c main_arg4) (rowOf (V c main_v6)) (V c main_arg6) (rowOf (V c main_v7)) (V c main_arg8)
          (rowOf (V c main_v8)) (V c main_arg1) (colOf (V c main_v5)) b q := by
  refine pooled_of_steps (V c main_arg3) (V c main_arg4) (rowOf (V c main_v6)) (V c main_arg6) (rowOf (V c main_v7)) (V c main_arg8)
    (rowOf (V c main_v8)) (V c main_arg1) (V c main_v5) b q (fun n h => accAt1 V c n h (ix2 b q)) ?_ ?_
  · intro h
    refine ((congrFun (accAt1_zero V c h) (ix2 b q)).trans (step1_apply V c ⟨0, h⟩ _ b q)).trans ?_
    rw [k1_pay2_eq, pay2_apply]
  · intro n h
    exact (congrFun (accAt1_succ V c n h) (ix2 b q)).trans (step1_apply V c ⟨n + 1, h⟩ _ b q)

end Cert.KernelIdeal.Val

end
-- ==== Proof.Val.Host.lean ====
import proofs.«421210_j62689342652499_1_alg».proof.Proof.Val.Step
import proofs.«421210_j62689342652499_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Idealize.ShloMosaic.StableHlo
open Cert.KernelIdeal Cert.KernelIdeal.Gen

theorem rowOf_cast {n : Nat} (x : (⟨1, ![n]⟩ : Shape).Idx → EReal) (h : (⟨1, ![n]⟩ : Shape).ShapeCasts ⟨2, ![1, n]⟩) :
    rowOf (shapeCast ⟨2, ![1, n]⟩ x h) = x := by
  funext j
  exact (shapeCast_a_1a_apply x h (0 : Fin 1) (j 0)).trans (congrArg x (eq_ix1 j).symm)

theorem colOf_cast {n : Nat} (x : (⟨1, ![n]⟩ : Shape).Idx → BitVec 32) (h : (⟨1, ![n]⟩ : Shape).ShapeCasts ⟨2, ![n, 1]⟩) :
    colOf (shapeCast ⟨2, ![n, 1]⟩ x h) = x := by
  funext j
  refine (shapeCast_apply x h (ix2 (j 0) (0 : Fin 1)) j ?_ : shapeCast ⟨2, ![n, 1]⟩ x h (ix2 (j 0) (0 : Fin 1)) = x j)
  rw [Shape.rowMajor_val_two, Shape.rowMajor_val_one]
  show (j 0).val = (j 0).val * 1 + 0
  omega

theorem rows_apply {R r C off : Nat} (x : (⟨2, ![R, C]⟩ : Shape).Idx → EReal)
    (h : (⟨2, ![R, C]⟩ : Shape).Slices ![off, 0] ⟨2, ![r, C]⟩) (i : Fin r) (j : Fin C) (hi : off + i.val < R) :
    extractStridedSlice ⟨2, ![r, C]⟩ ![off, 0] x h (ix2 i j) = x (ix2 (⟨off + i.val, hi⟩ : Fin R) j) :=
  extractStridedSlice_apply _ x h _ _ fun a => by
    match a with
    | ⟨0, _⟩ => rfl
    | ⟨1, _⟩ => exact (Nat.zero_add _).symm

variable (m : (ℓ : Loc nD τ sig) → Buf (Elt Ideal) ℓ) (outs : Gen.Outs (F := Ideal))

theorem V1_arg0 (c : Dev nD) : Gen.V1 m c main_arg0 = m ((c.tc : Thread nD τ).loc main_arg0) := (Gen.V1_of m c main_arg0 (by decide)).trans rfl
theorem V1_arg3 (c : Dev nD) : Gen.V1 m c main_arg3 = m ((c.tc : Thread nD τ).loc main_arg3) := (Gen.V1_of m c main_arg3 (by decide)).trans rfl
theorem V1_arg4 (c : Dev nD) : Gen.V1 m c main_arg4 = m ((c.tc : Thread nD τ).loc main_arg4) := (Gen.V1_of m c main_arg4 (by decide)).trans rfl
theorem V1_arg6 (c : Dev nD) : Gen.V1 m c main_arg6 = m ((c.tc : Thread nD τ).loc main_arg6) := (Gen.V1_of m c main_arg6 (by decide)).trans rfl
theorem V1_arg8 (c : Dev nD) : Gen.V1 m c main_arg8 = m ((c.tc : Thread nD τ).loc main_arg8) := (Gen.V1_of m c main_arg8 (by decide)).trans rfl

theorem V1_v0 (c : Dev nD) : colOf (Gen.V1 m c main_v0) = m ((c.tc : Thread nD τ).loc main_arg16) := by
  have e : Gen.V1 m c main_v0 = shapeCast S524288x1 (m ((c.tc : Thread nD τ).loc main_arg16)) shapeCasts_S524288_S524288x1 := by
    dsimp only [Gen.V1, Gen.hostOps0]; after_results; rfl
  rw [e]; exact colOf_cast _ _
theorem V1_v1 (c : Dev nD) : rowOf (Gen.V1 m c main_v1) = m ((c.tc : Thread nD τ).loc main_arg5) := by
  have e : Gen.V1 m c main_v1 = shapeCast S1x64 (m ((c.tc : Thread nD τ).loc main_arg5)) shapeCasts_S64_S1x64 := by
    dsimp only [Gen.V1, Gen.hostOps0]; after_results; rfl
  rw [e]; exact rowOf_cast _ _
theorem V1_v2 (c : Dev nD) : rowOf (Gen.V1 m c main_v2) = m ((c.tc : Thread nD τ).loc main_arg7) := by
  have e : Gen.V1 m c main_v2 = shapeCast S1x64 (m ((c.tc : Thread nD τ).loc main_arg7)) shapeCasts_S64_S1x64 := by
    dsimp only [Gen.V1, Gen.hostOps0]; after_results; rfl
  rw [e]; exact rowOf_cast _ _
theorem V1_v3 (c : Dev nD) : rowOf (Gen.V1 m c main_v3) = m ((c.tc : Thread nD τ).loc main_arg9) := by
  have e : Gen.V1 m c main_v3 = shapeCast S1x1 (m ((c.tc : Thread nD τ).loc main_arg9)) shapeCasts_S1_S1x1 := by
    dsimp only [Gen.V1, Gen.hostOps0]; after_results; rfl
  rw [e]; exact rowOf_cast _ _

theorem V2_arg (c : Dev nD) (r : Ref sig .tc) (h2 : r ∉ ([main_v4] : List (Ref sig .tc))) (h1 : r ∉ Gen.hostOps0_W) :
    Gen.V2 m outs c r = m ((c.tc : Thread nD τ).loc r) :=
  (Gen.V2_of m outs c r h2).trans ((Gen.V1_of m c r h1).trans rfl)
theorem V3_arg (c : Dev nD) (r : Ref sig .tc) (h3 : r ∉ Gen.hostOps1_W) (h2 : r ∉ ([main_v4] : List (Ref sig .tc))) (h1 : r ∉ Gen.hostOps0_W) :
    Gen.V3 m outs c r = m ((c.tc : Thread nD τ).loc r) :=
  (Gen.V3_of m outs c r h3).trans (V2_arg m outs c r h2 h1)

theorem V3_v5 (c : Dev nD) : colOf (Gen.V3 m outs c main_v5) = m ((c.tc : Thread nD τ).loc main_arg17) := by
  have e : Gen.V3 m outs c main_v5 = shapeCast S524288x1 (Gen.V2 m outs c main_arg17) shapeCasts_S524288_S524288x1 := by
    dsimp only [Gen.V3, Gen.hostOps1]; after_results; rfl
  rw [e, V2_arg m outs c main_arg17 (by decide) (by decide)]; exact colOf_cast _ _
theorem V3_v6 (c : Dev nD) : rowOf (Gen.V3 m outs c main_v6) = m ((c.tc : Thread nD τ).loc main_arg5) := by
  have e : Gen.V3 m outs c main_v6 = shapeCast S1x64 (Gen.V2 m outs c main_arg5) shapeCasts_S64_S1x64 := by
    dsimp only [Gen.V3, Gen.hostOps1]; after_results; rfl
  rw [e, V2_arg m outs c main_arg5 (by decide) (by decide)]; exact rowOf_cast _ _
theorem V3_v7 (c : Dev nD) : rowOf (Gen.V3 m outs c main_v7) = m ((c.tc : Thread nD τ).loc main_arg7) := by
  have e : Gen.V3 m outs c main_v7 = shapeCast S1x64 (Gen.V2 m outs c main_arg7) shapeCasts_S64_S1x64 := by
    dsimp only [Gen.V3, Gen.hostOps1]; after_results; rfl
  rw [e, V2_arg m outs c main_arg7 (by decide) (by decide)]; exact rowOf_cast _ _
theorem V3_v8 (c : Dev nD) : rowOf (Gen.V3 m outs c main_v8) = m ((c.tc : Thread nD τ).loc main_arg9) := by
  have e : Gen.V3 m outs c main_v8 = shapeCast S1x1 (Gen.V2 m outs c main_arg9) shapeCasts_S1_S1x1 := by
    dsimp only [Gen.V3, Gen.hostOps1]; after_results; rfl
  rw [e, V2_arg m outs c main_arg9 (by decide) (by decide)]; exact rowOf_cast _ _

theorem V4_arg (c : Dev nD) (r : Ref sig .tc) (h4 : r ∉ ([main_v9] : List (Ref sig .tc))) (h3 : r ∉ Gen.hostOps1_W)
    (h2 : r ∉ ([main_v4] : List (Ref sig .tc))) (h1 : r ∉ Gen.hostOps0_W) :
    Gen.V4 m outs c r = m ((c.tc : Thread nD τ).loc r) :=
  (Gen.V4_of m outs c r h4).trans (V3_arg m outs c r h3 h2 h1)
theorem V5_arg (c : Dev nD) (r : Ref sig .tc) (h5 : r ∉ Gen.hostOps2_W) (h4 : r ∉ ([main_v9] : List (Ref sig .tc))) (h3 : r ∉ Gen.hostOps1_W)
    (h2 : r ∉ ([main_v4] : List (Ref sig .tc))) (h1 : r ∉ Gen.hostOps0_W) :
    Gen.V5 m outs c r = m ((c.tc : Thread nD τ).loc r) :=
  (Gen.V5_of m outs c r h5).trans (V4_arg m outs c r h4 h3 h2 h1)

theorem V5_v10 (c : Dev nD) (i : Fin 64) (j : Fin 128) :
    Gen.V5 m outs c main_v10 (ix2 i j) = m ((c.tc : Thread nD τ).loc main_arg10) (ix2 (⟨i.val, by omega⟩ : Fin 144) j) := by
  have e : Gen.V5 m outs c main_v10 = extractStridedSlice S64x128 ![0, 0] (Gen.V4 m outs c main_arg10) slices_S144x128_S64x128_0_0 := by
    dsimp only [Gen.V5, Gen.hostOps2]; after_results
  rw [e, V4_arg m outs c main_arg10 (by decide) (by decide) (by decide) (by decide)]
  refine (rows_apply (off := 0) _ _ i j (by omega)).trans ?_
  exact congrArg _ (congrArg (fun k => ix2 k j) (Fin.ext (Nat.zero_add _)))
theorem V5_v11 (c : Dev nD) (i : Fin 64) (j : Fin 128) :
    Gen.V5 m outs c main_v11 (ix2 i j) = m ((c.tc : Thread nD τ).loc main_arg10) (ix2 (⟨64 + i.val, by omega⟩ : Fin 144) j) := by
  have e : Gen.V5 m outs c main_v11 = extractStridedSlice S64x128 ![64, 0] (Gen.V4 m outs c main_arg10) slices_S144x128_S64x128_64_0 := by
    dsimp only [Gen.V5, Gen.hostOps2]; after_results
  rw [e, V4_arg m outs c main_arg10 (by decide) (by decide) (by decide) (by decide)]
  exact rows_apply (off := 64) _ _ i j (by omega)
theorem V5_v12 (c : Dev nD) (i : Fin 16) (j : Fin 128) :
    Gen.V5 m outs c main_v12 (ix2 i j) = m ((c.tc : Thread nD τ).loc main_arg10) (ix2 (⟨128 + i.val, by omega⟩ : Fin 144) j) := by
  have e : Gen.V5 m outs c main_v12 = extractStridedSlice S16x128 ![128, 0] (Gen.V4 m outs c main_arg10) slices_S144x128_S16x128_128_0 := by
    dsimp only [Gen.V5, Gen.hostOps2]; after_results
  rw [e, V4_arg m outs c main_arg10 (by decide) (by decide) (by decide) (by decide)]
  exact rows_apply (off := 128) _ _ i j (by omega)
theorem V5_v13 (c : Dev nD) : rowOf (Gen.V5 m outs c main_v13) = m ((c.tc : Thread nD τ).loc main_arg11) := by
  have e : Gen.V5 m outs c main_v13 = shapeCast S1x128 (Gen.V4 m outs c main_arg11) shapeCasts_S128_S1x128 := by
    dsimp only [Gen.V5, Gen.hostOps2]; after_results; rfl
  rw [e, V4_arg m outs c main_arg11 (by decide) (by decide) (by decide) (by decide)]; exact rowOf_cast _ _
theorem V5_v14 (c : Dev nD) : rowOf (Gen.V5 m outs c main_v14) = m ((c.tc : Thread nD τ).loc main_arg13) := by
  have e : Gen.V5 m outs c main_v14 = shapeCast S1x128 (Gen.V4 m outs c main_arg13) shapeCasts_S128_S1x128 := by
    dsimp only [Gen.V5, Gen.hostOps2]; after_results; rfl
  rw [e, V4_arg m outs c main_arg13 (by decide) (by decide) (by decide) (by decide)]; exact rowOf_cast _ _
theorem V5_v15 (c : Dev nD) : rowOf (Gen.V5 m outs c main_v15) = m ((c.tc : Thread nD τ).loc main_arg15) := by
  have e : Gen.V5 m outs c main_v15 = shapeCast S1x10 (Gen.V4 m outs c main_arg15) shapeCasts_S10_S1x10 := by
    dsimp only [Gen.V5, Gen.hostOps2]; after_results; rfl
  rw [e, V4_arg m outs c main_arg15 (by decide) (by decide) (by decide) (by decide)]; exact rowOf_cast _ _

end Cert.KernelIdeal.Val

end
-- ==== Proof.Val.ClsBlocks.lean ====
import proofs.«421210_j62689342652499_1_alg».proof.Proof.KI.M2
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal.Gen

variable {F : FTy → Type} [FloatOps F]
variable (V : (c : Dev nD) → (b : Ref sig .tc) → Buf (Elt F) ((c : Thread nD τ).loc b))

theorem idx2_0 : ∀ (t : Fin cfg2.N) (a : Fin 2), win2_0.index t a = 0 :=
  (by decide +kernel : ∀ (t : Fin grid2.N) (a : Fin 2), _)

theorem iblk2_0 (c : Dev nD) : (iblk2 V c 0 t2_0 : Vec F S1024x64 .f32) = V c main_v4 :=
  funext fun y => congrArg (V c main_v4) (funext fun a => Fin.ext (win2_0.rect_emb_val_of_index_zero t2_0 a (idx2_0 t2_0 a) y))

theorem idx2_1 : ∀ (t : Fin cfg2.N) (a : Fin 2), win2_1.index t a = 0 :=
  (by decide +kernel : ∀ (t : Fin grid2.N) (a : Fin 2), _)

theorem iblk2_1 (c : Dev nD) : (iblk2 V c 1 t2_0 : Vec F S1024x64 .f32) = V c main_v9 :=
  funext fun y => congrArg (V c main_v9) (funext fun a => Fin.ext (win2_1.rect_emb_val_of_index_zero t2_0 a (idx2_1 t2_0 a) y))

theorem idx2_2 : ∀ (t : Fin cfg2.N) (a : Fin 2), win2_2.index t a = 0 :=
  (by decide +kernel : ∀ (t : Fin grid2.N) (a : Fin 2), _)

theorem iblk2_2 (c : Dev nD) : (iblk2 V c 2 t2_0 : Vec F S1024x16 .f32) = V c main_arg2 :=
  funext fun y => congrArg (V c main_arg2) (funext fun a => Fin.ext (win2_2.rect_emb_val_of_index_zero t2_0 a (idx2_2 t2_0 a) y))

theorem idx2_3 : ∀ (t : Fin cfg2.N) (a : Fin 2), win2_3.index t a = 0 :=
  (by decide +kernel : ∀ (t : Fin grid2.N) (a : Fin 2), _)

theorem iblk2_3 (c : Dev nD) : (iblk2 V c 3 t2_0 : Vec F S64x128 .f32) = V c main_v10 :=
  funext fun y => congrArg (V c main_v10) (funext fun a => Fin.ext (win2_3.rect_emb_val_of_index_zero t2_0 a (idx2_3 t2_0 a) y))

theorem idx2_4 : ∀ (t : Fin cfg2.N) (a : Fin 2), win2_4.index t a = 0 :=
  (by decide +kernel : ∀ (t : Fin grid2.N) (a : Fin 2), _)

theorem iblk2_4 (c : Dev nD) : (iblk2 V c 4 t2_0 : Vec F S64x128 .f32) = V c main_v11 :=
  funext fun y => congrArg (V c main_v11) (funext fun a => Fin.ext (win2_4.rect_emb_val_of_index_zero t2_0 a (idx2_4 t2_0 a) y))

theorem idx2_5 : ∀ (t : Fin cfg2.N) (a : Fin 2), win2_5.index t a = 0 :=
  (by decide +kernel : ∀ (t : Fin grid2.N) (a : Fin 2), _)

theorem iblk2_5 (c : Dev nD) : (iblk2 V c 5 t2_0 : Vec F S16x128 .f32) = V c main_v12 :=
  funext fun y => congrArg (V c main_v12) (funext fun a => Fin.ext (win2_5.rect_emb_val_of_index_zero t2_0 a (idx2_5 t2_0 a) y))

theorem idx2_6 : ∀ (t : Fin cfg2.N) (a : Fin 2), win2_6.index t a = 0 :=
  (by decide +kernel : ∀ (t : Fin grid2.N) (a : Fin 2), _)

theorem iblk2_6 (c : Dev nD) : (iblk2 V c 6 t2_0 : Vec F S1x128 .f32) = V c main_v13 :=
  funext fun y => congrArg (V c main_v13) (funext fun a => Fin.ext (win2_6.rect_emb_val_of_index_zero t2_0 a (idx2_6 t2_0 a) y))

theorem idx2_7 : ∀ (t : Fin cfg2.N) (a : Fin 2), win2_7.index t a = 0 :=
  (by decide +kernel : ∀ (t : Fin grid2.N) (a : Fin 2), _)

theorem iblk2_7 (c : Dev nD) : (iblk2 V c 7 t2_0 : Vec F S128x128 .f32) = V c main_arg12 :=
  funext fun y => congrArg (V c main_arg12) (funext fun a => Fin.ext (win2_7.rect_emb_val_of_index_zero t2_0 a (idx2_7 t2_0 a) y))

theorem idx2_8 : ∀ (t : Fin cfg2.N) (a : Fin 2), win2_8.index t a = 0 :=
  (by decide +kernel : ∀ (t : Fin grid2.N) (a : Fin 2), _)

theorem iblk2_8 (c : Dev nD) : (iblk2 V c 8 t2_0 : Vec F S1x128 .f32) = V c main_v14 :=
  funext fun y => congrArg (V c main_v14) (funext fun a => Fin.ext (win2_8.rect_emb_val_of_index_zero t2_0 a (idx2_8 t2_0 a) y))

theorem idx2_9 : ∀ (t : Fin cfg2.N) (a : Fin 2), win2_9.index t a = 0 :=
  (by decide +kernel : ∀ (t : Fin grid2.N) (a : Fin 2), _)

theorem iblk2_9 (c : Dev nD) : (iblk2 V c 9 t2_0 : Vec F S128x10 .f32) = V c main_arg14 :=
  funext fun y => congrArg (V c main_arg14) (funext fun a => Fin.ext (win2_9.rect_emb_val_of_index_zero t2_0 a (idx2_9 t2_0 a) y))

theorem idx2_10 : ∀ (t : Fin cfg2.N) (a : Fin 2), win2_10.index t a = 0 :=
  (by decide +kernel : ∀ (t : Fin grid2.N) (a : Fin 2), _)

theorem iblk2_10 (c : Dev nD) : (iblk2 V c 10 t2_0 : Vec F S1x10 .f32) = V c main_v15 :=
  funext fun y => congrArg (V c main_v15) (funext fun a => Fin.ext (win2_10.rect_emb_val_of_index_zero t2_0 a (idx2_10 t2_0 a) y))

end Cert.KernelIdeal.Hand

end
-- ==== Proof.Val.Bridge.lean ====
import proofs.«421210_j62689342652499_1_alg».proof.Proof.Val.Spec
import proofs.«421210_j62689342652499_1_alg».proof.Proof.Val.Step
import proofs.«421210_j62689342652499_1_alg».proof.Proof.Val.Cls
import proofs.«421210_j62689342652499_1_alg».proof.Proof.Val.Pool
import proofs.«421210_j62689342652499_1_alg».proof.Proof.Val.Host
import proofs.«421210_j62689342652499_1_alg».proof.Proof.Val.ClsBlocks
import proofs.«421210_j62689342652499_1_alg».proof.Proof.KI.Launch
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Finset BigOperators
open Cert.KernelIdeal Cert.KernelIdeal.Gen Cert.KernelIdeal.Hand

variable (m : (ℓ : Loc nD τ sig) → Buf (Elt Ideal) ℓ)

theorem pooled0 (c : Dev nD) (b : Fin 1024) (q : Fin 64) :
    Gen.V5 m (outs m) c main_v4 (ix2 b q)
      = Spec.pooled (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg0)) (m ((c.tc : Thread nD τ).loc main_arg16)) b q := by
  rw [V5_main_v4, accAt0_apply]
  dsimp only [entry0]
  rw [V1_arg3, V1_arg4, V1_v1, V1_arg6, V1_v2, V1_arg8, V1_v3, V1_arg0, V1_v0]

theorem pooled1 (c : Dev nD) (b : Fin 1024) (q : Fin 64) :
    Gen.V5 m (outs m) c main_v9 (ix2 b q)
      = Spec.pooled (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg1)) (m ((c.tc : Thread nD τ).loc main_arg17)) b q := by
  rw [V5_main_v9, accAt1_apply]
  dsimp only [entry1]
  rw [V3_arg m (outs m) c main_arg3 (by decide) (by decide) (by decide), V3_arg m (outs m) c main_arg4 (by decide) (by decide) (by decide),
    V3_v6, V3_arg m (outs m) c main_arg6 (by decide) (by decide) (by decide), V3_v7,
    V3_arg m (outs m) c main_arg8 (by decide) (by decide) (by decide), V3_v8,
    V3_arg m (outs m) c main_arg1 (by decide) (by decide) (by decide), V3_v5]

theorem kernel_result (c : Dev nD) :
    Gen.V6 m (outs m) c main_v16 = Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [V6_main_v16]
  funext i
  obtain ⟨b, j, rfl⟩ : ∃ (b : Fin 1024) (j : Fin 10), i = ix2 b j := ⟨i 0, i 1, eq_ix2 i⟩
  unfold res2 out2
  rw [iblk2_0, iblk2_1, iblk2_2, iblk2_3, iblk2_4, iblk2_5, iblk2_6, iblk2_7, iblk2_8, iblk2_9, iblk2_10]
  dsimp only [entry2]
  refine (cls_apply _ _ _ _ _ _ _ _ _ _ _ (m ((c.tc : Thread nD τ).loc main_arg10)) (V5_v10 m (outs m) c) (V5_v11 m (outs m) c) (V5_v12 m (outs m) c) b j).trans ?_
  have e0 : (fun (b : Fin 1024) (i : Fin 64) => Gen.V5 m (outs m) c main_v4 (ix2 b i))
      = Spec.pooled (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg0)) (m ((c.tc : Thread nD τ).loc main_arg16)) :=
    funext fun b => funext fun i => pooled0 m c b i
  have e1 : (fun (b : Fin 1024) (i : Fin 64) => Gen.V5 m (outs m) c main_v9 (ix2 b i))
      = Spec.pooled (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg1)) (m ((c.tc : Thread nD τ).loc main_arg17)) :=
    funext fun b => funext fun i => pooled1 m c b i
  rw [e0, e1, V5_v13, V5_v14, V5_v15,
    V5_arg m (outs m) c main_arg2 (by decide) (by decide) (by decide) (by decide) (by decide),
    V5_arg m (outs m) c main_arg12 (by decide) (by decide) (by decide) (by decide) (by decide),
    V5_arg m (outs m) c main_arg14 (by decide) (by decide) (by decide) (by decide) (by decide)]
  rfl

end Cert.KernelIdeal.Val

end
-- ==== Proof.lean ====
import proofs.«421210_j62689342652499_1_alg».proof.Defs
import proofs.«421210_j62689342652499_1_alg».proof.Proof.Gen.Kernel
import proofs.«421210_j62689342652499_1_alg».proof.Proof.Gen.KernelIdeal
import proofs.«421210_j62689342652499_1_alg».proof.Proof.Gen.ReferenceIdeal
import proofs.«421210_j62689342652499_1_alg».proof.Proof.Gen.Pre_finite_inputs
import proofs.«421210_j62689342652499_1_alg».proof.Proof.K.Launch
import proofs.«421210_j62689342652499_1_alg».proof.Proof.KI.Launch
import proofs.«421210_j62689342652499_1_alg».proof.Proof.Val.RefGen
import proofs.«421210_j62689342652499_1_alg».proof.Proof.Val.RefCls
import proofs.«421210_j62689342652499_1_alg».proof.Proof.Val.Bridge
import Idealize.ShloMosaic.Adequacy
import Idealize.ShloMosaic.Init

noncomputable section

namespace Cert.Proof

open Idealize.ShloMosaic Idealize.SL.Sem

/-- Each program's run, with its result dropped, is its frame. -/
theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification's function of the arguments, which agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Val.kernel_result m c), (h c).2⟩)
    (Cert.KernelIdeal.Hand.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.ReferenceIdeal.Val.ref_result]
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
